-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x16 : Shape := ⟨2, ![1600000, 16]⟩
abbrev S100000 : Shape := ⟨1, ![100000]⟩
abbrev S1000x200 : Shape := ⟨2, ![1000, 200]⟩
abbrev S32x64 : Shape := ⟨2, ![32, 64]⟩
abbrev S64 : Shape := ⟨1, ![64]⟩
abbrev S16x64 : Shape := ⟨2, ![16, 64]⟩
abbrev S3x128x64 : Shape := ⟨3, ![3, 128, 64]⟩
abbrev S3x64 : Shape := ⟨2, ![3, 64]⟩
abbrev S3x64x64 : Shape := ⟨3, ![3, 64, 64]⟩
abbrev S264x128 : Shape := ⟨2, ![264, 128]⟩
abbrev S128 : Shape := ⟨1, ![128]⟩
abbrev S128x1 : Shape := ⟨2, ![128, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S1000x200 : S_.BroadcastsInDim S1000x200 (![] : Fin 0 → Fin S1000x200.rank)
  reducesTo_S1000x200_S_d0_1 : S1000x200.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S264x128 : S_.BroadcastsInDim S264x128 (![] : Fin 0 → Fin S264x128.rank)
  reducesTo_S264x128_S_d0_1 : S264x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_v93 : IVec S_ 1) (main_v102 : IVec S1600000 1) (main_c_38 : IVec S_ 1) : IVec S_ 1 :=
  let main_v103 : IVec S_ 1 := (fun x v => Host.reduce IntOp.andi x v reducesTo_S1600000_S_d0 h_S_) main_v102 main_c_38
  let main_v104 : IVec S_ 1 := andi main_v93 main_v103
  main_v104

def fn_part5 {F : FTy → Type} [FloatOps F] (main_arg1 : IVec S2x1600000 32) (main_arg20 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : IVec S1x1600000 32 := (extractStridedSlice S1x1600000 ![0, 0] · slices_S2x1600000_S1x1600000_0_0) main_arg1
  let main_v95 : IVec S1600000 32 := shapeCast S1600000 main_v94 shapeCasts_S1x1600000_S1600000
  let main_c_36 : IVec S_ 32 := constantI S_ 32 0#32
  let main_v96 : IVec S1600000 32 := broadcastInDim S1600000 ![] bcast_S_S1600000 main_c_36
  let main_v97 : IVec S1600000 1 := cmpi .sge main_v95 main_v96
  let main_v98 : IVec S1x1600000 32 := (extractStridedSlice S1x1600000 ![0, 0] · slices_S2x1600000_S1x1600000_0_0) main_arg1
  let main_v99 : IVec S1600000 32 := shapeCast S1600000 main_v98 shapeCasts_S1x1600000_S1600000
  let main_c_37 : IVec S_ 32 := constantI S_ 32 100000#32
  let main_v100 : IVec S1600000 32 := broadcastInDim S1600000 ![] bcast_S_S1600000 main_c_37
  let main_v101 : IVec S1600000 1 := cmpi .slt main_v99 main_v100
  let main_v102 : IVec S1600000 1 := andi main_v97 main_v101
  let main_c_38 : IVec S_ 1 := constantI S_ 1 1#1
  fn_part6 (F := F) main_v93 main_v102 main_c_38

def fn_part4 {F : FTy → Type} [FloatOps F] (main_arg1 : IVec S2x1600000 32) (main_arg16 : FVec F S3x64 .f32) (main_arg17 : FVec F S264x128 .f32) (main_arg18 : FVec F S128 .f32) (main_arg19 : FVec F S128x1 .f32) (main_arg20 : FVec F S1 .f32) (main_v63 : IVec S_ 1) (main_v67 : IVec S_ 1) : IVec S_ 1 :=
  let main_v68 : IVec S_ 1 := andi main_v63 main_v67
  let main_v69 : FVec F S3x64 .f32 := Host.absf main_arg16
  let main_cst_26 : FVec F S_ .f32 := constant S_ .f32 0x7F800000#32
  let main_v70 : FVec F S3x64 .f32 := broadcastInDim S3x64 ![] bcast_S_S3x64 main_cst_26
  let main_v71 : IVec S3x64 1 := cmpf .olt main_v69 main_v70
  let main_c_27 : IVec S_ 1 := constantI S_ 1 1#1
  let main_v72 : IVec S_ 1 := (fun x v => Host.reduce IntOp.andi x v reducesTo_S3x64_S_d0_1 h_S_) main_v71 main_c_27
  let main_v73 : IVec S_ 1 := andi main_v68 main_v72
  let main_v74 : FVec F S264x128 .f32 := Host.absf main_arg17
  let main_cst_28 : FVec F S_ .f32 := constant S_ .f32 0x7F800000#32
  let main_v75 : FVec F S264x128 .f32 := broadcastInDim S264x128 ![] bcast_S_S264x128 main_cst_28
  let main_v76 : IVec S264x128 1 := cmpf .olt main_v74 main_v75
  let main_c_29 : IVec S_ 1 := constantI S_ 1 1#1
  let main_v77 : IVec S_ 1 := (fun x v => Host.reduce IntOp.andi x v reducesTo_S264x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg19
  let main_cst_32 : FVec F S_ .f32 := constant S_ .f32 0x7F800000#32
  fn_part5 (F := F) main_arg1 main_arg20 main_v83 main_v84 main_cst_32

def fn_part3 {F : FTy → Type} [FloatOps F] (main_arg1 : IVec S2x1600000 32) (main_arg13 : FVec F S3x128x64 .f32) (main_arg14 : FVec F S3x64 .f32) (main_arg15 : FVec F S3x64x64 .f32) (main_arg16 : FVec F S3x64 .f32) (main_arg17 : FVec F S264x128 .f32) (main_arg18 : FVec F S128 .f32) (main_arg19 : FVec F S128x1 .f32) (main_arg20 : FVec F S1 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x128x64 .f32 := Host.absf main_arg13
  let main_cst_20 : FVec F S_ .f32 := constant S_ .f32 0x7F800000#32
  let main_v55 : FVec F S3x128x64 .f32 := broadcastInDim S3x128x64 ![] bcast_S_S3x128x64 main_cst_20
  let main_v56 : IVec S3x128x64 1 := cmpf .olt main_v54 main_v55
  let main_c_21 : IVec S_ 1 := constantI S_ 1 1#1
  let main_v57 : IVec S_ 1 := (fun x v => Host.reduce IntOp.andi x v reducesTo_S3x128x64_S_d0_1_2 h_S_) main_v56 main_c_21
  let main_v58 : IVec S_ 1 := andi main_v53 main_v57
  let main_v59 : FVec F S3x64 .f32 := Host.absf main_arg14
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S3x64x64 .f32 := Host.absf main_arg15
  let main_cst_24 : FVec F S_ .f32 := constant S_ .f32 0x7F800000#32
  let main_v65 : FVec F S3x64x64 .f32 := broadcastInDim S3x64x64 ![] bcast_S_S3x64x64 main_cst_24
  let main_v66 : IVec S3x64x64 1 := cmpf .olt main_v64 main_v65
  let main_c_25 : IVec S_ 1 := constantI S_ 1 1#1
  let main_v67 : IVec S_ 1 := (fun x v => Host.reduce IntOp.andi x v reducesTo_S3x64x64_S_d0_1_2 h_S_) main_v66 main_c_25
  fn_part4 (F := F) main_arg1 main_arg16 main_arg17 main_arg18 main_arg19 main_arg20 main_v63 main_v67

def fn_part2 {F : FTy → Type} [FloatOps F] (main_arg1 : IVec S2x1600000 32) (main_arg9 : FVec F S3x128x64 .f32) (main_arg10 : FVec F S3x64 .f32) (main_arg11 : FVec F S3x64x64 .f32) (main_arg12 : FVec F S3x64 .f32) (main_arg13 : FVec F S3x128x64 .f32) (main_arg14 : FVec F S3x64 .f32) (main_arg15 : FVec F S3x64x64 .f32) (main_arg16 : FVec F S3x64 .f32) (main_arg17 : FVec F S264x128 .f32) (main_arg18 : FVec F S128 .f32) (main_arg19 : FVec F S128x1 .f32) (main_arg20 : FVec F S1 .f32) (main_v33 : IVec S_ 1) : IVec S_ 1 :=
  let main_v34 : FVec F S3x128x64 .f32 := Host.absf main_arg9
  let main_cst_12 : FVec F S_ .f32 := constant S_ .f32 0x7F800000#32
  let main_v35 : FVec F S3x128x64 .f32 := broadcastInDim S3x128x64 ![] bcast_S_S3x128x64 main_cst_12
  let main_v36 : IVec S3x128x64 1 := cmpf .olt main_v34 main_v35
  let main_c_13 : IVec S_ 1 := constantI S_ 1 1#1
  let main_v37 : IVec S_ 1 := (fun x v => Host.reduce IntOp.andi x v reducesTo_S3x128x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg11
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg1 main_arg13 main_arg14 main_arg15 main_arg16 main_arg17 main_arg18 main_arg19 main_arg20 main_v48 main_v49 main_v50

def fn_part1 {F : FTy → Type} [FloatOps F] (main_arg1 : IVec S2x1600000 32) (main_arg6 : FVec F S64 .f32) (main_arg7 : FVec F S16x64 .f32) (main_arg8 : FVec F S64 .f32) (main_arg9 : FVec F S3x128x64 .f32) (main_arg10 : FVec F S3x64 .f32) (main_arg11 : FVec F S3x64x64 .f32) (main_arg12 : FVec F S3x64 .f32) (main_arg13 : FVec F S3x128x64 .f32) (main_arg14 : FVec F S3x64 .f32) (main_arg15 : FVec F S3x64x64 .f32) (main_arg16 : FVec F S3x64 .f32) (main_arg17 : FVec F S264x128 .f32) (main_arg18 : FVec F S128 .f32) (main_arg19 : FVec F S128x1 .f32) (main_arg20 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S16x64 .f32 := Host.absf main_arg7
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_v33

def fn {F : FTy → Type} [FloatOps F] (main_arg0 : FVec F S100000x32 .f32) (main_arg1 : IVec S2x1600000 32) (main_arg2 : FVec F S1600000x16 .f32) (main_arg3 : IVec S100000 32) (main_arg4 : FVec F S1000x200 .f32) (main_arg5 : FVec F S32x64 .f32) (main_arg6 : FVec F S64 .f32) (main_arg7 : FVec F S16x64 .f32) (main_arg8 : FVec F S64 .f32) (main_arg9 : FVec F S3x128x64 .f32) (main_arg10 : FVec F S3x64 .f32) (main_arg11 : FVec F S3x64x64 .f32) (main_arg12 : FVec F S3x64 .f32) (main_arg13 : FVec F S3x128x64 .f32) (main_arg14 : FVec F S3x64 .f32) (main_arg15 : FVec F S3x64x64 .f32) (main_arg16 : FVec F S3x64 .f32) (main_arg17 : FVec F S264x128 .f32) (main_arg18 : FVec F S128 .f32) (main_arg19 : FVec F S128x1 .f32) (main_arg20 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S1000x200 .f32 := Host.absf main_arg4
  let main_cst_2 : FVec F S_ .f32 := constant S_ .f32 0x7F800000#32
  let main_v10 : FVec F S1000x200 .f32 := broadcastInDim S1000x200 ![] bcast_S_S1000x200 main_cst_2
  let main_v11 : IVec S1000x200 1 := cmpf .olt main_v9 main_v10
  let main_c_3 : IVec S_ 1 := constantI S_ 1 1#1
  let main_v12 : IVec S_ 1 := (fun x v => Host.reduce IntOp.andi x v reducesTo_S1000x200_S_d0_1 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_v13 main_v16
-- ==== Kernel.lean ====
abbrev S100000x32 : Shape := ⟨2, ![100000, 32]⟩
abbrev S2x1600000 : Shape := ⟨2, ![2, 1600000]⟩
abbrev S1600000x16 : Shape := ⟨2, ![1600000, 16]⟩
abbrev S100000 : Shape := ⟨1, ![100000]⟩
abbrev S1000x200 : Shape := ⟨2, ![1000, 200]⟩
abbrev S32x64 : Shape := ⟨2, ![32, 64]⟩
abbrev S64 : Shape := ⟨1, ![64]⟩
abbrev S16x64 : Shape := ⟨2, ![16, 64]⟩
abbrev S3x128x64 : Shape := ⟨3, ![3, 128, 64]⟩
abbrev S3x64 : Shape := ⟨2, ![3, 64]⟩
abbrev S3x64x64 : Shape := ⟨3, ![3, 64, 64]⟩
abbrev S264x128 : Shape := ⟨2, ![264, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1600000x64 : Shape := ⟨2, ![1600000, 64]⟩
abbrev S10000x16 : Shape := ⟨2, ![10000, 16]⟩
abbrev S_ : Shape := ⟨0, ![]⟩
abbrev S1600000x1 : Shape := ⟨2, ![1600000, 1]⟩
abbrev S1x1 : Shape := ⟨2, ![1, 1]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S5000x64 : Shape := ⟨2, ![5000, 64]⟩
abbrev S5000x128 : Shape := ⟨2, ![5000, 128]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x128 : Shape := ⟨2, ![1, 128]⟩
abbrev S1000x264 : Shape := ⟨2, ![1000, 264]⟩
abbrev S1000x128 : Shape := ⟨2, ![1000, 128]⟩

abbrev nBuf : Space → Nat
  | .hbm => 204
  | .vmem => 79
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S100000, .i32⟩
  | 4 => ⟨S1000x200, .f32⟩
  | 5 => ⟨S32x64, .f32⟩
  | 6 => ⟨S64, .f32⟩
  | 7 => ⟨S16x64, .f32⟩
  | 8 => ⟨S64, .f32⟩
  | 9 => ⟨S3x128x64, .f32⟩
  | 10 => ⟨S3x64, .f32⟩
  | 11 => ⟨S3x64x64, .f32⟩
  | 12 => ⟨S3x64, .f32⟩
  | 13 => ⟨S3x128x64, .f32⟩
  | 14 => ⟨S3x64, .f32⟩
  | 15 => ⟨S3x64x64, .f32⟩
  | 16 => ⟨S3x64, .f32⟩
  | 17 => ⟨S264x128, .f32⟩
  | 18 => ⟨S128, .f32⟩
  | 19 => ⟨S128x1, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S1x64, .f32⟩
  | 26 => ⟨S100000x64, .f32⟩
  | 27 => ⟨S1x64, .f32⟩
  | 28 => ⟨S1600000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1, .i32⟩
  | 38 => ⟨S_, .i32⟩
  | 39 => ⟨S1600000x1, .i32⟩
  | 40 => ⟨S1600000x1, .i1⟩
  | 41 => ⟨S1x1, .i32⟩
  | 42 => ⟨S1600000x1, .i32⟩
  | 43 => ⟨S1600000x1, .i1⟩
  | 44 => ⟨S1600000x1, .i1⟩
  | 45 => ⟨S_, .i1⟩
  | 46 => ⟨S1600000, .i1⟩
  | 47 => ⟨S1600000x64, .f32⟩
  | 48 => ⟨S1600000x64, .i1⟩
  | 49 => ⟨S_, .f32⟩
  | 50 => ⟨S1600000x64, .f32⟩
  | 51 => ⟨S1600000x64, .f32⟩
  | 52 => ⟨S1x128x64, .f32⟩
  | 53 => ⟨S128x64, .f32⟩
  | 54 => ⟨S1x64, .f32⟩
  | 55 => ⟨S64, .f32⟩
  | 56 => ⟨S1x64x64, .f32⟩
  | 57 => ⟨S64x64, .f32⟩
  | 58 => ⟨S1x64, .f32⟩
  | 59 => ⟨S64, .f32⟩
  | 60 => ⟨S1x64, .f32⟩
  | 61 => ⟨S1x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S1x128x64, .f32⟩
  | 68 => ⟨S128x64, .f32⟩
  | 69 => ⟨S1x64, .f32⟩
  | 70 => ⟨S64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S1x64, .f32⟩
  | 77 => ⟨S100000x64, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1, .i32⟩
  | 87 => ⟨S_, .i32⟩
  | 88 => ⟨S1600000x1, .i32⟩
  | 89 => ⟨S1600000x1, .i1⟩
  | 90 => ⟨S1x1, .i32⟩
  | 91 => ⟨S1600000x1, .i32⟩
  | 92 => ⟨S1600000x1, .i1⟩
  | 93 => ⟨S1600000x1, .i1⟩
  | 94 => ⟨S_, .i1⟩
  | 95 => ⟨S1600000, .i1⟩
  | 96 => ⟨S1600000x64, .f32⟩
  | 97 => ⟨S1600000x64, .i1⟩
  | 98 => ⟨S_, .f32⟩
  | 99 => ⟨S1600000x64, .f32⟩
  | 100 => ⟨S1600000x64, .f32⟩
  | 101 => ⟨S1x128x64, .f32⟩
  | 102 => ⟨S128x64, .f32⟩
  | 103 => ⟨S1x64, .f32⟩
  | 104 => ⟨S64, .f32⟩
  | 105 => ⟨S1x64x64, .f32⟩
  | 106 => ⟨S64x64, .f32⟩
  | 107 => ⟨S1x64, .f32⟩
  | 108 => ⟨S64, .f32⟩
  | 109 => ⟨S1x64, .f32⟩
  | 110 => ⟨S1x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S1x128x64, .f32⟩
  | 117 => ⟨S128x64, .f32⟩
  | 118 => ⟨S1x64, .f32⟩
  | 119 => ⟨S64, .f32⟩
  | 120 => ⟨S1x64x64, .f32⟩
  | 121 => ⟨S64x64, .f32⟩
  | 122 => ⟨S1x64, .f32⟩
  | 123 => ⟨S64, .f32⟩
  | 124 => ⟨S1x64, .f32⟩
  | 125 => ⟨S1x64, .f32⟩
  | 126 => ⟨S100000x64, .f32⟩
  | 127 => ⟨S_, .i32⟩
  | _ => ⟨S100000x32, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1, .i32⟩
  | 8 => ⟨S_, .i32⟩
  | 9 => ⟨S1600000x1, .i32⟩
  | 10 => ⟨S1600000x1, .i1⟩
  | 11 => ⟨S1x1, .i32⟩
  | 12 => ⟨S1600000x1, .i32⟩
  | 13 => ⟨S1600000x1, .i1⟩
  | 14 => ⟨S1600000x1, .i1⟩
  | 15 => ⟨S_, .i1⟩
  | 16 => ⟨S1600000, .i1⟩
  | 17 => ⟨S1600000x64, .f32⟩
  | 18 => ⟨S1600000x64, .i1⟩
  | 19 => ⟨S_, .f32⟩
  | 20 => ⟨S1600000x64, .f32⟩
  | 21 => ⟨S1600000x64, .f32⟩
  | 22 => ⟨S1x128x64, .f32⟩
  | 23 => ⟨S128x64, .f32⟩
  | 24 => ⟨S1x64, .f32⟩
  | 25 => ⟨S64, .f32⟩
  | 26 => ⟨S1x64x64, .f32⟩
  | 27 => ⟨S64x64, .f32⟩
  | 28 => ⟨S1x64, .f32⟩
  | 29 => ⟨S64, .f32⟩
  | 30 => ⟨S1x64, .f32⟩
  | 31 => ⟨S1x64, .f32⟩
  | 32 => ⟨S1600000x64, .f32⟩
  | 33 => ⟨S_, .f32⟩
  | 34 => ⟨S100000x64, .f32⟩
  | 35 => ⟨S1600000x1, .i32⟩
  | 36 => ⟨S100000x64, .f32⟩
  | 37 => ⟨S1x128x64, .f32⟩
  | 38 => ⟨S128x64, .f32⟩
  | 39 => ⟨S1x64, .f32⟩
  | 40 => ⟨S64, .f32⟩
  | 41 => ⟨S1x64x64, .f32⟩
  | 42 => ⟨S64x64, .f32⟩
  | 43 => ⟨S1x64, .f32⟩
  | 44 => ⟨S64, .f32⟩
  | 45 => ⟨S1x64, .f32⟩
  | 46 => ⟨S1x64, .f32⟩
  | 47 => ⟨S100000x64, .f32⟩
  | 48 => ⟨S_, .f32⟩
  | 49 => ⟨S1000x64, .f32⟩
  | 50 => ⟨S100000x1, .i32⟩
  | 51 => ⟨S1000x64, .f32⟩
  | 52 => ⟨S_, .f32⟩
  | 53 => ⟨S100000, .f32⟩
  | 54 => ⟨S_, .f32⟩
  | 55 => ⟨S1000, .f32⟩
  | 56 => ⟨S100000x1, .i32⟩
  | 57 => ⟨S1000, .f32⟩
  | 58 => ⟨S_, .f32⟩
  | 59 => ⟨S1000, .f32⟩
  | 60 => ⟨S1000, .f32⟩
  | 61 => ⟨S1000x1, .f32⟩
  | 62 => ⟨S1000x64, .f32⟩
  | 63 => ⟨S1000x64, .f32⟩
  | 64 => ⟨S1x128, .f32⟩
  | 65 => ⟨S1x1, .f32⟩
  | 66 => ⟨S1000x1, .f32⟩
  | 67 => ⟨S1000x1, .f32⟩
  | 68 => ⟨S1000x1, .f32⟩
  | 69 => ⟨S_, .f32⟩
  | 70 => ⟨S1000x1, .f32⟩
  | 71 => ⟨S1000x1, .f32⟩
  | 72 => ⟨S_, .f32⟩
  | 73 => ⟨S1000x1, .f32⟩
  | 74 => ⟨S1000x1, .f32⟩
  | 75 => ⟨S1000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x16, .f32⟩
  | .local _ .vmem, ⟨7, _⟩ => ⟨S10000x16, .f32⟩
  | .local _ .vmem, ⟨8, _⟩ => ⟨S16x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S128x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S128x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S128x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S128x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S128x64, .f32⟩
  | .local _ .vmem, ⟨57, _⟩ => ⟨S1x64, .f32⟩
  | .local _ .vmem, ⟨58, _⟩ => ⟨S64x64, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S128x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S1000x64, .f32⟩
  | .local _ .vmem, ⟨73, _⟩ => ⟨S1000x200, .f32⟩
  | .local _ .vmem, ⟨74, _⟩ => ⟨S264x128, .f32⟩
  | .local _ .vmem, ⟨75, _⟩ => ⟨S1x128, .f32⟩
  | .local _ .vmem, ⟨76, _⟩ => ⟨S128x1, .f32⟩
  | .local _ .vmem, ⟨77, _⟩ => ⟨S1x1, .f32⟩
  | .local _ .vmem, ⟨78, _⟩ => ⟨S1000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_cst_0 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_call2_c : Ref sig .tc := ⟨.hbm, 127, rfl⟩
abbrev main_call2_v0 : Ref sig .tc := ⟨.hbm, 128, rfl⟩
abbrev main_call2_v1 : Ref sig .tc := ⟨.hbm, 129, rfl⟩
abbrev main_call2_c_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_c_1 : Ref sig .tc := ⟨.hbm, 135, rfl⟩
abbrev main_call2_c_2 : Ref sig .tc := ⟨.hbm, 136, rfl⟩
abbrev main_call2_v6 : Ref sig .tc := ⟨.hbm, 137, rfl⟩
abbrev main_call2_v7 : Ref sig .tc := ⟨.hbm, 138, rfl⟩
abbrev main_call2_v8 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_c_3 : Ref sig .tc := ⟨.hbm, 143, rfl⟩
abbrev main_call2_v12 : Ref sig .tc := ⟨.hbm, 144, rfl⟩
abbrev main_call2_v13 : Ref sig .tc := ⟨.hbm, 145, rfl⟩
abbrev main_call2_v14 : Ref sig .tc := ⟨.hbm, 146, rfl⟩
abbrev main_call2_cst : Ref sig .tc := ⟨.hbm, 147, rfl⟩
abbrev main_call2_v15 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_cst_1 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_cst_2 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_cst_3 : Ref sig .tc := ⟨.hbm, 180, rfl⟩
abbrev main_v89 : Ref sig .tc := ⟨.hbm, 181, rfl⟩
abbrev main_cst_4 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_cst_5 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_cst_6 : Ref sig .tc := ⟨.hbm, 197, rfl⟩
abbrev main_v103 : Ref sig .tc := ⟨.hbm, 198, rfl⟩
abbrev main_v104 : Ref sig .tc := ⟨.hbm, 199, rfl⟩
abbrev main_cst_7 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg6_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg4_0 : Ref sig .tc := ⟨.vmem, 68, rfl⟩
abbrev cc7_stg5_0 : Ref sig .tc := ⟨.vmem, 69, rfl⟩
abbrev cc7_stg6_0 : Ref sig .tc := ⟨.vmem, 70, rfl⟩
abbrev cc7_stg6_1 : Ref sig .tc := ⟨.vmem, 71, rfl⟩
abbrev cc8_stg0_0 : Ref sig .tc := ⟨.vmem, 72, rfl⟩
abbrev cc8_stg1_0 : Ref sig .tc := ⟨.vmem, 73, rfl⟩
abbrev cc8_stg2_0 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg5_0 : Ref sig .tc := ⟨.vmem, 77, rfl⟩
abbrev cc8_stg6_0 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem6_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem3_0 : DmaSem sig := 67
abbrev cc7_sem4_0 : DmaSem sig := 68
abbrev cc7_sem5_0 : DmaSem sig := 69
abbrev cc7_sem6_0 : DmaSem sig := 70
abbrev cc7_sem6_1 : DmaSem sig := 71
abbrev cc8_sem0_0 : DmaSem sig := 72
abbrev cc8_sem1_0 : DmaSem sig := 73
abbrev cc8_sem2_0 : DmaSem sig := 74
abbrev cc8_sem3_0 : DmaSem sig := 75
abbrev cc8_sem4_0 : DmaSem sig := 76
abbrev cc8_sem5_0 : DmaSem sig := 77
abbrev cc8_sem6_0 : DmaSem sig := 78

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![320], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![320], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![320], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S1000x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1000x200 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S264x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1000x1 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  inb_S32x64_S32x64_0_0 : ∀ a, (![0, 0] : Fin 2 → Nat) a + S32x64.size a ≤ S32x64.size a
  h_S32x64 : 0 < S32x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S10000x16_S10000x16_0_0 : ∀ a, (![0, 0] : Fin 2 → Nat) a + S10000x16.size a ≤ S10000x16.size a
  h_S10000x16 : 0 < S10000x16.numel
  inb_S16x64_S16x64_0_0 : ∀ a, (![0, 0] : Fin 2 → Nat) a + S16x64.size a ≤ S16x64.size a
  h_S16x64 : 0 < S16x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  slices_S3x128x64_S1x128x64_1_0_0 : S3x128x64.Slices ![1, 0, 0] S1x128x64
  slices_S3x64_S1x64_1_0 : S3x64.Slices ![1, 0] S1x64
  slices_S3x64x64_S1x64x64_1_0_0 : S3x64x64.Slices ![1, 0, 0] S1x64x64
  slices_S3x128x64_S1x128x64_2_0_0 : S3x128x64.Slices ![2, 0, 0] S1x128x64
  slices_S3x64_S1x64_2_0 : S3x64.Slices ![2, 0] S1x64
  slices_S3x64x64_S1x64x64_2_0_0 : S3x64x64.Slices ![2, 0, 0] S1x64x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  shapeCasts_S128_S1x128 : S128.ShapeCasts S1x128
  shapeCasts_S1_S1x1 : S1.ShapeCasts S1x1
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x200_S1000x200_0_0 : ∀ a, (![0, 0] : Fin 2 → Nat) a + S1000x200.size a ≤ S1000x200.size a
  h_S1000x200 : 0 < S1000x200.numel
  concatenates_S1000x64_S1000x200_S1000x264_d1 : Shape.Concatenates [S1000x64, S1000x200] S1000x264 1
  inb_S264x128_S264x128_0_0 : ∀ a, (![0, 0] : Fin 2 → Nat) a + S264x128.size a ≤ S264x128.size a
  h_S264x128 : 0 < S264x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  bcast_S_S1000x1 : S_.BroadcastsInDim S1000x1 (![] : Fin 0 → Fin S1000x1.rank)
  shapeCasts_S1000x1_S1000 : S1000x1.ShapeCasts S1000
  dot_S10000x32_S32x64_S10000x64_1_0_0_1_n_n_wf : DotDims.WF S10000x32 S32x64 S10000x64 [1] [0] [0] [1] [] []
  dot_S10000x16_S16x64_S10000x64_1_0_0_1_n_n_wf : DotDims.WF S10000x16 S16x64 S10000x64 [1] [0] [0] [1] [] []
  gather_S100000x64_S1600000x1_S1600000x64_1_0_n_n_0_1_164_wf : GatherDims.WF S100000x64 S1600000x1 S1600000x64 [1] [0] [] [0] [] 1 ![1, 64]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x264_S264x128_S1000x128_1_0_0_1_n_n_wf : DotDims.WF S1000x264 S264x128 S1000x128 [1] [0] [0] [1] [] []
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S1600000x16.size a
  hwx1_0 : ∀ i : grid1.Coords, EltTy.bits .f32 = 32 ∨ (Rect.block (s := S1600000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S1600000x64.size a
  hwx1_3 : ∀ i : grid1.Coords, EltTy.bits .f32 = 32 ∨ (Rect.block (s := S1600000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S1600000x64.size a
  hwx2_0 : ∀ i : grid2.Coords, EltTy.bits .f32 = 32 ∨ (Rect.block (s := S1600000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S1600000x64.size a
  hwx2_1 : ∀ i : grid2.Coords, EltTy.bits .f32 = 32 ∨ (Rect.block (s := S1600000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S1600000x64.size a
  hwx2_6 : ∀ i : grid2.Coords, EltTy.bits .f32 = 32 ∨ (Rect.block (s := S1600000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S1600000x64.size a
  hwx4_0 : ∀ i : grid4.Coords, EltTy.bits .f32 = 32 ∨ (Rect.block (s := S1600000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S1600000x64.size a
  hwx4_1 : ∀ i : grid4.Coords, EltTy.bits .f32 = 32 ∨ (Rect.block (s := S1600000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S1600000x64.size a
  hwx4_6 : ∀ i : grid4.Coords, EltTy.bits .f32 = 32 ∨ (Rect.block (s := S1600000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S1600000x64.size a
  hwx6_0 : ∀ i : grid6.Coords, EltTy.bits .f32 = 32 ∨ (Rect.block (s := S1600000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S1600000x64.size a
  hwx6_1 : ∀ i : grid6.Coords, EltTy.bits .f32 = 32 ∨ (Rect.block (s := S1600000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S1600000x64.size a
  hwx6_6 : ∀ i : grid6.Coords, EltTy.bits .f32 = 32 ∨ (Rect.block (s := S1600000x64) S5000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x64.size a ≤ S128x64.size a
  hwx7_2 : ∀ i : grid7.Coords, EltTy.bits .f32 = 32 ∨ (Rect.block (s := S128x64) S128x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S100000x64.size a
  hwx7_6 : ∀ i : grid7.Coords, EltTy.bits .f32 = 32 ∨ (Rect.block (s := S100000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S1000x64.size a ≤ S1000x64.size a
  hwx8_0 : ∀ i : grid8.Coords, EltTy.bits .f32 = 32 ∨ (Rect.block (s := S1000x64) S1000x64.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S1000x200.size a ≤ S1000x200.size a
  hwx8_1 : ∀ i : grid8.Coords, EltTy.bits .f32 = 32 ∨ (Rect.block (s := S1000x200) S1000x200.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S264x128.size a ≤ S264x128.size a
  hwx8_2 : ∀ i : grid8.Coords, EltTy.bits .f32 = 32 ∨ (Rect.block (s := S264x128) S264x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x1.size a ≤ S128x1.size a
  hwx8_4 : ∀ i : grid8.Coords, EltTy.bits .f32 = 32 ∨ (Rect.block (s := S128x1) S128x1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x1.size a ≤ S1x1.size a
  hwx8_5 : ∀ i : grid8.Coords, EltTy.bits .f32 = 32 ∨ (Rect.block (s := S1x1) S1x1.size (cc8_transform_5 i) (hinb8_5 i)).WholeWords (EltTy.packing .f32)
  hstage8_6 : ∀ j, (stage8_6 j).IsWhole
  nbuf8_6 : grid8.bufCount reads8_6 false = 1
  hreads8_6 : ∀ i i' : grid8.Coords, (∀ a, reads8_6 a = true → i a = i' a) → cc8_transform_6 i = cc8_transform_6 i'
  hinb8_6 : ∀ (i : grid8.Coords) a, (cc8_transform_6 i a + 1) * S1000x1.size a ≤ S1000x1.size a
  hwx8_6 : ∀ i : grid8.Coords, EltTy.bits .f32 = 32 ∨ (Rect.block (s := S1000x1) S1000x1.size (cc8_transform_6 i) (hinb8_6 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x264_S264x128_S1000x128_1_0_0_1_n_n : DotDims S1000x264 S264x128 S1000x128 where
  lhsContracting := [1]
  rhsContracting := [0]
  lhsNonContracting := [0]
  rhsNonContracting := [1]
  lhsBatch := []
  rhsBatch := []
  wf := dot_S1000x264_S264x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v5) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v34) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v44) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v45) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v33) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v54) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v58) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v59) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v60) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v7) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v62) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v69) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v66) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v70) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v71) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v59) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v76) S128x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v80) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v84) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v85) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v97) S1000x64.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg4) S1000x200.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_arg17) S264x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v98) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg19) S128x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v99) S1x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v100) S1000x1.size cc8_transform_6 reads8_6 true false 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x16 : Shape := ⟨2, ![1600000, 16]⟩
abbrev S100000 : Shape := ⟨1, ![100000]⟩
abbrev S1000x200 : Shape := ⟨2, ![1000, 200]⟩
abbrev S32x64 : Shape := ⟨2, ![32, 64]⟩
abbrev S64 : Shape := ⟨1, ![64]⟩
abbrev S16x64 : Shape := ⟨2, ![16, 64]⟩
abbrev S3x128x64 : Shape := ⟨3, ![3, 128, 64]⟩
abbrev S3x64 : Shape := ⟨2, ![3, 64]⟩
abbrev S3x64x64 : Shape := ⟨3, ![3, 64, 64]⟩
abbrev S264x128 : Shape := ⟨2, ![264, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S1600000x64 : Shape := ⟨2, ![1600000, 64]⟩
abbrev S_ : Shape := ⟨0, ![]⟩
abbrev S1600000x1 : Shape := ⟨2, ![1600000, 1]⟩
abbrev S1600000x128 : Shape := ⟨2, ![1600000, 128]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S100000x128 : Shape := ⟨2, ![100000, 128]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1000x264 : Shape := ⟨2, ![1000, 264]⟩
abbrev S1000x128 : Shape := ⟨2, ![1000, 128]⟩
abbrev S1x128 : Shape := ⟨2, ![1, 128]⟩
abbrev S1x1 : Shape := ⟨2, ![1, 1]⟩

abbrev nBuf : Space → Nat
  | .hbm => 229
  | .vmem => 0
  | .smem => 0
  | _ => 0

abbrev hbmTy0_0 (i : Nat) : BufTy := match i % 128 with
  | 0 => ⟨S100000x32, .f32⟩
  | 1 => ⟨S2x1600000, .i32⟩
  | 2 => ⟨S1600000x16, .f32⟩
  | 3 => ⟨S100000, .i32⟩
  | 4 => ⟨S1000x200, .f32⟩
  | 5 => ⟨S32x64, .f32⟩
  | 6 => ⟨S64, .f32⟩
  | 7 => ⟨S16x64, .f32⟩
  | 8 => ⟨S64, .f32⟩
  | 9 => ⟨S3x128x64, .f32⟩
  | 10 => ⟨S3x64, .f32⟩
  | 11 => ⟨S3x64x64, .f32⟩
  | 12 => ⟨S3x64, .f32⟩
  | 13 => ⟨S3x128x64, .f32⟩
  | 14 => ⟨S3x64, .f32⟩
  | 15 => ⟨S3x64x64, .f32⟩
  | 16 => ⟨S3x64, .f32⟩
  | 17 => ⟨S264x128, .f32⟩
  | 18 => ⟨S128, .f32⟩
  | 19 => ⟨S128x1, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S100000x64, .f32⟩
  | 26 => ⟨S1x64, .f32⟩
  | 27 => ⟨S100000x64, .f32⟩
  | 28 => ⟨S100000x64, .f32⟩
  | 29 => ⟨S1600000x64, .f32⟩
  | 30 => ⟨S1x64, .f32⟩
  | 31 => ⟨S1600000x64, .f32⟩
  | 32 => ⟨S1600000x64, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S1600000x128, .f32⟩
  | 43 => ⟨S1x128x64, .f32⟩
  | 44 => ⟨S128x64, .f32⟩
  | 45 => ⟨S1600000x64, .f32⟩
  | 46 => ⟨S1x64, .f32⟩
  | 47 => ⟨S64, .f32⟩
  | 48 => ⟨S1x64, .f32⟩
  | 49 => ⟨S1600000x64, .f32⟩
  | 50 => ⟨S1600000x64, .f32⟩
  | 51 => ⟨S_, .f32⟩
  | 52 => ⟨S1600000x64, .f32⟩
  | 53 => ⟨S1600000x64, .f32⟩
  | 54 => ⟨S1x64x64, .f32⟩
  | 55 => ⟨S64x64, .f32⟩
  | 56 => ⟨S1600000x64, .f32⟩
  | 57 => ⟨S1x64, .f32⟩
  | 58 => ⟨S64, .f32⟩
  | 59 => ⟨S1x64, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S100000x128, .f32⟩
  | 67 => ⟨S1x128x64, .f32⟩
  | 68 => ⟨S128x64, .f32⟩
  | 69 => ⟨S100000x64, .f32⟩
  | 70 => ⟨S1x64, .f32⟩
  | 71 => ⟨S64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S1x64x64, .f32⟩
  | 79 => ⟨S64x64, .f32⟩
  | 80 => ⟨S100000x64, .f32⟩
  | 81 => ⟨S1x64, .f32⟩
  | 82 => ⟨S64, .f32⟩
  | 83 => ⟨S1x64, .f32⟩
  | 84 => ⟨S100000x64, .f32⟩
  | 85 => ⟨S100000x64, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x64, .f32⟩
  | 95 => ⟨S1600000x128, .f32⟩
  | 96 => ⟨S1x128x64, .f32⟩
  | 97 => ⟨S128x64, .f32⟩
  | 98 => ⟨S1600000x64, .f32⟩
  | 99 => ⟨S1x64, .f32⟩
  | 100 => ⟨S64, .f32⟩
  | 101 => ⟨S1x64, .f32⟩
  | 102 => ⟨S1600000x64, .f32⟩
  | 103 => ⟨S1600000x64, .f32⟩
  | 104 => ⟨S_, .f32⟩
  | 105 => ⟨S1600000x64, .f32⟩
  | 106 => ⟨S1600000x64, .f32⟩
  | 107 => ⟨S1x64x64, .f32⟩
  | 108 => ⟨S64x64, .f32⟩
  | 109 => ⟨S1600000x64, .f32⟩
  | 110 => ⟨S1x64, .f32⟩
  | 111 => ⟨S64, .f32⟩
  | 112 => ⟨S1x64, .f32⟩
  | 113 => ⟨S1600000x64, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S100000x128, .f32⟩
  | 120 => ⟨S1x128x64, .f32⟩
  | 121 => ⟨S128x64, .f32⟩
  | 122 => ⟨S100000x64, .f32⟩
  | 123 => ⟨S1x64, .f32⟩
  | 124 => ⟨S64, .f32⟩
  | 125 => ⟨S1x64, .f32⟩
  | 126 => ⟨S100000x64, .f32⟩
  | 127 => ⟨S100000x64, .f32⟩
  | _ => ⟨S100000x32, .f32⟩

abbrev hbmTy0_1 (i : Nat) : BufTy := match i % 128 with
  | 0 => ⟨S_, .f32⟩
  | 1 => ⟨S100000x64, .f32⟩
  | 2 => ⟨S100000x64, .f32⟩
  | 3 => ⟨S1x64x64, .f32⟩
  | 4 => ⟨S64x64, .f32⟩
  | 5 => ⟨S100000x64, .f32⟩
  | 6 => ⟨S1x64, .f32⟩
  | 7 => ⟨S64, .f32⟩
  | 8 => ⟨S1x64, .f32⟩
  | 9 => ⟨S100000x64, .f32⟩
  | 10 => ⟨S100000x64, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x128, .f32⟩
  | 21 => ⟨S1x128x64, .f32⟩
  | 22 => ⟨S128x64, .f32⟩
  | 23 => ⟨S1600000x64, .f32⟩
  | 24 => ⟨S1x64, .f32⟩
  | 25 => ⟨S64, .f32⟩
  | 26 => ⟨S1x64, .f32⟩
  | 27 => ⟨S1600000x64, .f32⟩
  | 28 => ⟨S1600000x64, .f32⟩
  | 29 => ⟨S_, .f32⟩
  | 30 => ⟨S1600000x64, .f32⟩
  | 31 => ⟨S1600000x64, .f32⟩
  | 32 => ⟨S1x64x64, .f32⟩
  | 33 => ⟨S64x64, .f32⟩
  | 34 => ⟨S1600000x64, .f32⟩
  | 35 => ⟨S1x64, .f32⟩
  | 36 => ⟨S64, .f32⟩
  | 37 => ⟨S1x64, .f32⟩
  | 38 => ⟨S1600000x64, .f32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S100000x128, .f32⟩
  | 45 => ⟨S1x128x64, .f32⟩
  | 46 => ⟨S128x64, .f32⟩
  | 47 => ⟨S100000x64, .f32⟩
  | 48 => ⟨S1x64, .f32⟩
  | 49 => ⟨S64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S1x64x64, .f32⟩
  | 57 => ⟨S64x64, .f32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S_, .f32⟩
  | 65 => ⟨S1000x64, .f32⟩
  | 66 => ⟨S100000x1, .i32⟩
  | 67 => ⟨S1000x64, .f32⟩
  | 68 => ⟨S_, .f32⟩
  | 69 => ⟨S100000, .f32⟩
  | 70 => ⟨S_, .f32⟩
  | 71 => ⟨S1000, .f32⟩
  | 72 => ⟨S100000x1, .i32⟩
  | 73 => ⟨S1000, .f32⟩
  | 74 => ⟨S_, .f32⟩
  | 75 => ⟨S1000, .f32⟩
  | 76 => ⟨S1000, .f32⟩
  | 77 => ⟨S1000x1, .f32⟩
  | 78 => ⟨S1000x64, .f32⟩
  | 79 => ⟨S1000x64, .f32⟩
  | 80 => ⟨S1000x264, .f32⟩
  | 81 => ⟨S1000x128, .f32⟩
  | 82 => ⟨S1x128, .f32⟩
  | 83 => ⟨S1000x128, .f32⟩
  | 84 => ⟨S1000x128, .f32⟩
  | 85 => ⟨S_, .f32⟩
  | 86 => ⟨S1000x128, .f32⟩
  | 87 => ⟨S1000x128, .f32⟩
  | 88 => ⟨S1000x1, .f32⟩
  | 89 => ⟨S1x1, .f32⟩
  | 90 => ⟨S1000x1, .f32⟩
  | 91 => ⟨S1000x1, .f32⟩
  | 92 => ⟨S1000x1, .f32⟩
  | 93 => ⟨S1000x1, .f32⟩
  | 94 => ⟨S_, .f32⟩
  | 95 => ⟨S1000x1, .f32⟩
  | 96 => ⟨S1000x1, .f32⟩
  | 97 => ⟨S_, .f32⟩
  | 98 => ⟨S1000x1, .f32⟩
  | 99 => ⟨S1000x1, .f32⟩
  | 100 => ⟨S1000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call0_cst : Ref sig .tc := ⟨.hbm, 51, rfl⟩
abbrev main_call0_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_1 : Ref sig .tc := ⟨.hbm, 86, rfl⟩
abbrev main_v58 : Ref sig .tc := ⟨.hbm, 87, rfl⟩
abbrev main_v59 : Ref sig .tc := ⟨.hbm, 88, rfl⟩
abbrev main_c_2 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call2_cst : Ref sig .tc := ⟨.hbm, 104, rfl⟩
abbrev main_call2_v0 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_3 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call3_cst : Ref sig .tc := ⟨.hbm, 128, rfl⟩
abbrev main_call3_v0 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_4 : Ref sig .tc := ⟨.hbm, 139, rfl⟩
abbrev main_v104 : Ref sig .tc := ⟨.hbm, 140, rfl⟩
abbrev main_v105 : Ref sig .tc := ⟨.hbm, 141, rfl⟩
abbrev main_c_5 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_call4_cst : Ref sig .tc := ⟨.hbm, 157, rfl⟩
abbrev main_call4_v0 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_6 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_call5_cst : Ref sig .tc := ⟨.hbm, 181, rfl⟩
abbrev main_call5_v0 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_cst_7 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_8 : Ref sig .tc := ⟨.hbm, 196, rfl⟩
abbrev main_v153 : Ref sig .tc := ⟨.hbm, 197, rfl⟩
abbrev main_cst_9 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_10 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_call6_cst : Ref sig .tc := ⟨.hbm, 213, rfl⟩
abbrev main_call6_v0 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_11 : Ref sig .tc := ⟨.hbm, 222, rfl⟩
abbrev main_v174 : Ref sig .tc := ⟨.hbm, 223, rfl⟩
abbrev main_v175 : Ref sig .tc := ⟨.hbm, 224, rfl⟩
abbrev main_cst_12 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S_S1600000x64 : S_.BroadcastsInDim S1600000x64 (![] : Fin 0 → Fin S1600000x64.rank)
  slices_S3x64x64_S1x64x64_0_0_0 : S3x64x64.Slices ![0, 0, 0] S1x64x64
  shapeCasts_S1x64x64_S64x64 : S1x64x64.ShapeCasts S64x64
  bcast_S_S100000x64 : S_.BroadcastsInDim S100000x64 (![] : Fin 0 → Fin S100000x64.rank)
  concatenates_S100000x64_S100000x64_S100000x128_d1 : Shape.Concatenates [S100000x64, S100000x64] S100000x128 1
  slices_S3x128x64_S1x128x64_1_0_0 : S3x128x64.Slices ![1, 0, 0] S1x128x64
  slices_S3x64_S1x64_1_0 : S3x64.Slices ![1, 0] S1x64
  slices_S3x64x64_S1x64x64_1_0_0 : S3x64x64.Slices ![1, 0, 0] S1x64x64
  slices_S3x128x64_S1x128x64_2_0_0 : S3x128x64.Slices ![2, 0, 0] S1x128x64
  slices_S3x64_S1x64_2_0 : S3x64.Slices ![2, 0] S1x64
  slices_S3x64x64_S1x64x64_2_0_0 : S3x64x64.Slices ![2, 0, 0] S1x64x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  concatenates_S1000x64_S1000x200_S1000x264_d1 : Shape.Concatenates [S1000x64, S1000x200] S1000x264 1
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  bcast_S_S1000x128 : S_.BroadcastsInDim S1000x128 (![] : Fin 0 → Fin S1000x128.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  bcast_S_S1000x1 : S_.BroadcastsInDim S1000x1 (![] : Fin 0 → Fin S1000x1.rank)
  shapeCasts_S1000x1_S1000 : S1000x1.ShapeCasts S1000
  dot_S100000x32_S32x64_S100000x64_1_0_0_1_n_n_wf : DotDims.WF S100000x32 S32x64 S100000x64 [1] [0] [0] [1] [] []
  dot_S1600000x16_S16x64_S1600000x64_1_0_0_1_n_n_wf : DotDims.WF S1600000x16 S16x64 S1600000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x264_S264x128_S1000x128_1_0_0_1_n_n_wf : DotDims.WF S1000x264 S264x128 S1000x128 [1] [0] [0] [1] [] []
  dot_S1000x128_S128x1_S1000x1_1_0_0_1_n_n_wf : DotDims.WF S1000x128 S128x1 S1000x1 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x264_S264x128_S1000x128_1_0_0_1_n_n : DotDims S1000x264 S264x128 S1000x128 where
  lhsContracting := [1]
  rhsContracting := [0]
  lhsNonContracting := [0]
  rhsNonContracting := [1]
  lhsBatch := []
  rhsBatch := []
  wf := dot_S1000x264_S264x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.KKeep.lean ====
import proofs.«408410_j14482629722785_2_alg».proof.Proof.Gen.KernelIdeal.Frame
import Idealize.ShloMosaic.PureOps.Ideal

noncomputable section

namespace Cert.KernelIdeal.Keep

open Cert.KernelIdeal Cert.KernelIdeal.Gen Idealize.ShloMosaic Idealize.ShloMosaic.TcCoe

variable (m : (ℓ : Loc nD τ sig) → Buf (Elt Ideal) ℓ) (ρ : Dev nD → PrngReg)

def Wn : Fin 23 → Dev nD → Valuation τ sig (Elt Ideal)
  | ⟨0, _⟩ => W0 m ρ
  | ⟨1, _⟩ => W1 m ρ
  | ⟨2, _⟩ => W2 m ρ
  | ⟨3, _⟩ => W3 m ρ
  | ⟨4, _⟩ => W4 m ρ
  | ⟨5, _⟩ => W5 m ρ
  | ⟨6, _⟩ => W6 m ρ
  | ⟨7, _⟩ => W7 m ρ
  | ⟨8, _⟩ => W8 m ρ
  | ⟨9, _⟩ => W9 m ρ
  | ⟨10, _⟩ => W10 m ρ
  | ⟨11, _⟩ => W11 m ρ
  | ⟨12, _⟩ => W12 m ρ
  | ⟨13, _⟩ => W13 m ρ
  | ⟨14, _⟩ => W14 m ρ
  | ⟨15, _⟩ => W15 m ρ
  | ⟨16, _⟩ => W16 m ρ
  | ⟨17, _⟩ => W17 m ρ
  | ⟨18, _⟩ => W18 m ρ
  | ⟨19, _⟩ => W19 m ρ
  | ⟨20, _⟩ => W20 m ρ
  | ⟨21, _⟩ => W21 m ρ
  | ⟨22, _⟩ => W22 m ρ
  | ⟨_ + 23, h⟩ => absurd h (Nat.not_lt.2 (Nat.le_add_left _ _))

def segWrites : Fin 22 → List (Ref sig .tc)
  | ⟨0, _⟩ => [main_v0, main_v1, main_v2, main_v3, main_v4]
  | ⟨1, _⟩ => [main_v5]
  | ⟨2, _⟩ => [main_v6]
  | ⟨3, _⟩ => [main_v7]
  | ⟨4, _⟩ => [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v8]
  | ⟨5, _⟩ => [main_v9, main_v10, main_v11, main_v12, main_v13, main_v14, main_v15, main_v16, main_v17, main_v18]
  | ⟨6, _⟩ => [main_v19]
  | ⟨7, _⟩ => [main_cst, main_v20, main_v21, main_v22, main_v23, main_v24, main_v25, main_v26, main_v27, main_v28, main_v29, main_v30, main_v31, main_v32]
  | ⟨8, _⟩ => [main_v33]
  | ⟨9, _⟩ => [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v34]
  | ⟨10, _⟩ => [main_v35, main_v36, main_v37, main_v38, main_v39, main_v40, main_v41, main_v42, main_v43, main_v44]
  | ⟨11, _⟩ => [main_v45]
  | ⟨12, _⟩ => [main_cst_0, main_v46, main_v47, main_v48, main_v49, main_v50, main_v51, main_v52, main_v53, main_v54, main_v55, main_v56, main_v57, main_v58]
  | ⟨13, _⟩ => [main_v59]
  | ⟨14, _⟩ => [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v60]
  | ⟨15, _⟩ => [main_v61, main_v62, main_v63, main_v64, main_v65, main_v66, main_v67, main_v68, main_v69, main_v70]
  | ⟨16, _⟩ => [main_v71]
  | ⟨17, _⟩ => [main_cst_1, main_v72, main_v73, main_v74, main_v75, main_v76, main_v77, main_v78, main_v79, main_v80, main_v81, main_v82, main_v83, main_v84]
  | ⟨18, _⟩ => [main_v85]
  | ⟨19, _⟩ => [main_cst_2, main_v86, main_v87, main_v88, main_cst_3, main_v89, main_cst_4, main_v90, main_v91, main_v92, main_cst_5, main_v93, main_v94, main_v95, main_v96, main_v97, main_v98, main_v99]
  | ⟨20, _⟩ => [main_v100]
  | ⟨21, _⟩ => [main_v101, main_v102, main_cst_6, main_v103, main_v104, main_cst_7, main_v105, main_v106, main_v107]
  | ⟨_ + 22, h⟩ => absurd h (Nat.not_lt.2 (Nat.le_add_left _ _))

/-- A line whose operations write one buffer each, those of `W` in order, leaves a buffer outside `W` as it was. -/
theorem host_keep {ops : List (HloOp τ sig (Elt Ideal))} {V V' : Valuation τ sig (Elt Ideal)} {W : List (Ref sig .tc)}
    {r : Ref sig .tc} (hr : r ∉ W) (hV : V' = StableHlo.after ops V)
    (h : ops.map HloOp.writes = W.map fun y => ({Proc.devRef .tc y} : Finset (DevRef τ sig))) :
    V' (Proc.devRef .tc r) = V (Proc.devRef .tc r) :=
  hV ▸ StableHlo.after_of_forall_not_mem ops V fun op hop hb => by
    obtain ⟨y, hy, e⟩ := List.mem_map.mp (h ▸ List.mem_map_of_mem hop)
    rw [← e, Finset.mem_singleton] at hb
    exact hr (Proc.devRef_injective _ hb ▸ hy)

/-- An input window's array is never written back, so a region changes its output windows' arrays only. -/
theorem region_keep {cfg : Pipeline.Cfg sig Λ₀} {c : Dev nD}
    (dat : Pipeline.Dat τ (Elt Ideal) Unit ℕ (UR sig nD τ) ℕ cfg c) {V V' : Valuation τ sig (Elt Ideal)}
    {W : List (Ref sig .tc)} {r : Ref sig .tc}
    (harr : ∀ w, V' (Proc.devRef .tc (Pipeline.arrRef cfg.spec w)) = dat.arrAt w cfg.N)
    (hne : ∀ b, (∀ w, Pipeline.arrRef cfg.spec w ≠ b) → V' (Proc.devRef .tc b) = V (Proc.devRef .tc b))
    (hA : ∀ w, dat.A w = V (Proc.devRef .tc (Pipeline.arrRef cfg.spec w)))
    (hout : ∀ w, (cfg.win w).isOut = true → Pipeline.arrRef cfg.spec w ∈ W) (hr : r ∉ W) :
    V' (Proc.devRef .tc r) = V (Proc.devRef .tc r) := by
  by_cases h : ∃ w, Pipeline.arrRef cfg.spec w = r
  · obtain ⟨w, rfl⟩ := h
    rw [harr, ← hA]
    exact dat.arrAt_in w (Bool.eq_false_iff.mpr fun ho => hr (hout w ho)) _
  · exact hne r fun w e => h ⟨w, e⟩

theorem step (k : Fin 22) (r : Ref sig .tc) (hr : r ∉ segWrites k) (c : Dev nD) :
    Wn m ρ k.succ c (Proc.devRef .tc r) = Wn m ρ k.castSucc c (Proc.devRef .tc r) :=
  match k with
  | ⟨0, _⟩ | ⟨2, _⟩ | ⟨4, _⟩ | ⟨5, _⟩ | ⟨7, _⟩ | ⟨9, _⟩ | ⟨10, _⟩ | ⟨12, _⟩ | ⟨14, _⟩ | ⟨15, _⟩ | ⟨17, _⟩ | ⟨19, _⟩ | ⟨21, _⟩ => host_keep hr rfl rfl
  | 1 => (region_keep (dat0 (V1 m ρ) c) (W2_arr m ρ c) (W2_of_ne m ρ c) (A_eq0 (V1 m ρ) c) (by decide) hr :)
  | 3 => (region_keep (dat1 (V3 m ρ) c) (W4_arr m ρ c) (W4_of_ne m ρ c) (A_eq1 (V3 m ρ) c) (by decide) hr :)
  | 6 => (region_keep (dat2 (V6 m ρ) c) (W7_arr m ρ c) (W7_of_ne m ρ c) (A_eq2 (V6 m ρ) c) (by decide) hr :)
  | 8 => (region_keep (dat3 (V8 m ρ) c) (W9_arr m ρ c) (W9_of_ne m ρ c) (A_eq3 (V8 m ρ) c) (by decide) hr :)
  | 11 => (region_keep (dat4 (V11 m ρ) c) (W12_arr m ρ c) (W12_of_ne m ρ c) (A_eq4 (V11 m ρ) c) (by decide) hr :)
  | 13 => (region_keep (dat5 (V13 m ρ) c) (W14_arr m ρ c) (W14_of_ne m ρ c) (A_eq5 (V13 m ρ) c) (by decide) hr :)
  | 16 => (region_keep (dat6 (V16 m ρ) c) (W17_arr m ρ c) (W17_of_ne m ρ c) (A_eq6 (V16 m ρ) c) (by decide) hr :)
  | 18 => (region_keep (dat7 (V18 m ρ) c) (W19_arr m ρ c) (W19_of_ne m ρ c) (A_eq7 (V18 m ρ) c) (by decide) hr :)
  | 20 => (region_keep (dat8 (V20 m ρ) c) (W21_arr m ρ c) (W21_of_ne m ρ c) (A_eq8 (V20 m ρ) c) (by decide) hr :)
  | ⟨_ + 22, h⟩ => absurd h (Nat.not_lt.2 (Nat.le_add_left _ _))

theorem keep (i j : Fin 23) (hij : i ≤ j) (r : Ref sig .tc)
    (hr : ∀ k : Fin 22, i.val ≤ k.val → k.val < j.val → r ∉ segWrites k) (c : Dev nD) :
    Wn m ρ j c (Proc.devRef .tc r) = Wn m ρ i c (Proc.devRef .tc r) := by
  obtain ⟨j, hj⟩ := j
  induction j, (show i.val ≤ j from hij) using Nat.le_induction with
  | base => rfl
  | succ n hn ih =>
    exact (step m ρ ⟨n, by omega⟩ r (hr _ hn n.lt_succ_self) c).trans
      (ih (by omega) hn fun k h1 h2 => hr k h1 (Nat.lt_succ_of_lt h2))

end Cert.KernelIdeal.Keep

end
-- ==== Proof.KGlue.lean ====
import proofs.«408410_j14482629722785_2_alg».proof.Proof.Gen.KernelIdeal

noncomputable section

namespace Cert.KernelIdeal.Glue

open Cert.KernelIdeal Cert.KernelIdeal.Gen Idealize.ShloMosaic

variable {F : FTy → Type} [FloatOps F]

def srcOf (ei : IVec S2x1600000 32) : IVec S1600000 32 :=
  shapeCast S1600000 (extractStridedSlice S1x1600000 ![0, 0] ei slices_S2x1600000_S1x1600000_0_0) shapeCasts_S1x1600000_S1600000

def dstOf (ei : IVec S2x1600000 32) : IVec S1600000 32 :=
  shapeCast S1600000 (extractStridedSlice S1x1600000 ![1, 0] ei slices_S2x1600000_S1x1600000_1_0) shapeCasts_S1x1600000_S1600000

def wrapIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def gatherRows (h : FVec F S100000x64 .f32) (s : IVec S1600000 32) : FVec F S1600000x64 .f32 :=
  Host.gather gather_S100000x64_S1600000x1_S1600000x64_1_0_n_n_0_1_164 h (wrapIdx s)

def inRange (s : IVec S1600000 32) : IVec S1600000 1 :=
  Host.reduce IntOp.andi
    (andi (cmpi .sge (wrapIdx s) (broadcastInDim S1600000x1 ![] bcast_S_S1600000x1 (constantI S_ 32 0#32)))
      (cmpi .sle (wrapIdx s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

def takeRows (h : FVec F S100000x64 .f32) (s : IVec S1600000 32) : FVec F S1600000x64 .f32 :=
  select (broadcastInDim S1600000x64 ![0] bcast_S1600000_S1600000x64_0 (inRange s)) (gatherRows h s)
    (broadcastInDim S1600000x64 ![] bcast_S_S1600000x64 (constant S_ .f32 0x7FC00000#32))

end Cert.KernelIdeal.Glue

end
-- ==== Proof.DenseSpec.lean ====
import Idealize.ShloMosaic.PureOps.Ideal
import Idealize.ShloMosaic.Lib.ValueIdx

noncomputable section

namespace Cert.Dense

open Idealize.ShloMosaic Idealize.ShloMosaic.ValueIdx

abbrev Idx2 (n0 n1 : ℕ) : Type := (⟨2, ![n0, n1]⟩ : Shape).Idx

def catRow {Ha Hb Hc : ℕ} (hc : Hc = Ha + Hb) (a : Fin Ha → EReal) (b : Fin Hb → EReal) (k : Fin Hc) : EReal :=
  if h : k.val < Ha then a ⟨k.val, h⟩ else b ⟨k.val - Ha, by have := k.isLt; omega⟩

def linRow {K H : ℕ} (x : Fin K → EReal) (W : Idx2 K H → EReal) (b : Idx2 1 H → EReal) (c : Fin H) : EReal :=
  (∑ k : Fin K, x k * W (ix2 k c)) + b (ix2 0 c)

def mlpRow {Ha Hb Hc H1 H2 : ℕ} (hc : Hc = Ha + Hb) (a : Fin Ha → EReal) (b : Fin Hb → EReal)
    (W1 : Idx2 Hc H1 → EReal) (b1 : Idx2 1 H1 → EReal) (W2 : Idx2 H1 H2 → EReal) (b2 : Idx2 1 H2 → EReal)
    (c : Fin H2) : EReal :=
  (∑ k2 : Fin H1, max ((∑ k1 : Fin Hc, catRow hc a b k1 * W1 (ix2 k1 k2)) + b1 (ix2 0 k2)) 0 * W2 (ix2 k2 c)) + b2 (ix2 0 c)

abbrev rowOf {M K : ℕ} (x : Idx2 M K → EReal) (r : Fin M) : Fin K → EReal := fun k => x (ix2 r k)

def linArr {M K H : ℕ} (x : Idx2 M K → EReal) (W : Idx2 K H → EReal) (b : Idx2 1 H → EReal) : Idx2 M H → EReal :=
  fun i => linRow (rowOf x (i 0)) W b (i 1)

def mlpArr {M Ha Hb Hc H1 H2 : ℕ} (hc : Hc = Ha + Hb) (a : Idx2 M Ha → EReal) (b : Idx2 M Hb → EReal)
    (W1 : Idx2 Hc H1 → EReal) (b1 : Idx2 1 H1 → EReal) (W2 : Idx2 H1 H2 → EReal) (b2 : Idx2 1 H2 → EReal) :
    Idx2 M H2 → EReal :=
  fun i => mlpRow hc (rowOf a (i 0)) (rowOf b (i 0)) W1 b1 W2 b2 (i 1)

theorem linArr_apply {M K H : ℕ} (x : Idx2 M K → EReal) (W : Idx2 K H → EReal) (b : Idx2 1 H → EReal) (r : Fin M) (c : Fin H) :
    linArr x W b (ix2 r c) = linRow (rowOf x r) W b c := rfl

theorem mlpArr_apply {M Ha Hb Hc H1 H2 : ℕ} (hc : Hc = Ha + Hb) (a : Idx2 M Ha → EReal) (b : Idx2 M Hb → EReal)
    (W1 : Idx2 Hc H1 → EReal) (b1 : Idx2 1 H1 → EReal) (W2 : Idx2 H1 H2 → EReal) (b2 : Idx2 1 H2 → EReal)
    (r : Fin M) (c : Fin H2) :
    mlpArr hc a b W1 b1 W2 b2 (ix2 r c) = mlpRow hc (rowOf a r) (rowOf b r) W1 b1 W2 b2 c := rfl

end Cert.Dense

end
-- ==== Proof.KNet.lean ====
import proofs.«408410_j14482629722785_2_alg».proof.Proof.KGlue
import proofs.«408410_j14482629722785_2_alg».proof.Proof.DenseSpec

noncomputable section

namespace Cert.KernelIdeal.Glue

open Cert.KernelIdeal Cert.KernelIdeal.Gen Idealize.ShloMosaic Cert.Dense

def mat128 (W : FVec Ideal S3x128x64 .f32) (off : Fin 3 → ℕ) (h : S3x128x64.Slices off S1x128x64) : FVec Ideal S128x64 .f32 :=
  shapeCast S128x64 (extractStridedSlice S1x128x64 off W h) shapeCasts_S1x128x64_S128x64

def mat64 (W : FVec Ideal S3x64x64 .f32) (off : Fin 3 → ℕ) (h : S3x64x64.Slices off S1x64x64) : FVec Ideal S64x64 .f32 :=
  shapeCast S64x64 (extractStridedSlice S1x64x64 off W h) shapeCasts_S1x64x64_S64x64

def vec64 (b : FVec Ideal S3x64 .f32) (off : Fin 2 → ℕ) (h : S3x64.Slices off S1x64) : FVec Ideal S64 .f32 :=
  shapeCast S64 (extractStridedSlice S1x64 off b h) shapeCasts_S1x64_S64

def row64 (v : FVec Ideal S64 .f32) : FVec Ideal S1x64 .f32 := shapeCast S1x64 v shapeCasts_S64_S1x64
def row128 (v : FVec Ideal S128 .f32) : FVec Ideal S1x128 .f32 := shapeCast S1x128 v shapeCasts_S128_S1x128
def row1 (v : FVec Ideal S1 .f32) : FVec Ideal S1x1 .f32 := shapeCast S1x1 v shapeCasts_S1_S1x1

def aggRows (d : IVec S1600000 32) (msg : FVec Ideal S1600000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d) msg

def poolRows (bt : IVec S100000 32) (h : FVec Ideal S100000x64 .f32) : FVec Ideal S1000x64 .f32 :=
  Host.divf
    (Host.scatterAdd scatter_S1000x64_S100000x1_S100000x64_1_0_0_1
      (broadcastInDim S1000x64 ![] bcast_S_S1000x64 (constant S_ .f32 0x00000000#32))
      (broadcastInDim S100000x1 ![0] bcast_S100000_S100000x1_0 bt) h)
    (broadcastInDim S1000x64 ![0, 1] bcast_S1000x1_S1000x64_0_1
      (broadcastInDim S1000x1 ![0] bcast_S1000_S1000x1_0
        (maximumf
          (Host.scatterAdd scatter_S1000_S100000x1_S100000_n_0_0_1
            (broadcastInDim S1000 ![] bcast_S_S1000 (constant S_ .f32 0x00000000#32))
            (broadcastInDim S100000x1 ![0] bcast_S100000_S100000x1_0 bt)
            (broadcastInDim S100000 ![] bcast_S_S100000 (constant S_ .f32 0x3F800000#32)))
          (broadcastInDim S1000 ![] bcast_S_S1000 (constant S_ .f32 0x3F800000#32)))))

def squash (o : FVec Ideal S1000x1 .f32) : FVec Ideal S1000 .f32 :=
  shapeCast S1000
    (Host.divf (broadcastInDim S1000x1 ![] bcast_S_S1000x1 (constant S_ .f32 0x3F800000#32))
      (addf (broadcastInDim S1000x1 ![] bcast_S_S1000x1 (constant S_ .f32 0x3F800000#32)) (Host.exp (Host.negf o))))
    shapeCasts_S1000x1_S1000

def layerWith (gath : FVec Ideal S100000x64 .f32 → FVec Ideal S1600000x64 .f32) (d : IVec S1600000 32)
    (ea : FVec Ideal S1600000x64 .f32)
    (Wm1 : FVec Ideal S128x64 .f32) (bm1 : FVec Ideal S1x64 .f32) (Wm2 : FVec Ideal S64x64 .f32) (bm2 : FVec Ideal S1x64 .f32)
    (Wu1 : FVec Ideal S128x64 .f32) (bu1 : FVec Ideal S1x64 .f32) (Wu2 : FVec Ideal S64x64 .f32) (bu2 : FVec Ideal S1x64 .f32)
    (h : FVec Ideal S100000x64 .f32) : FVec Ideal S100000x64 .f32 :=
  mlpArr (Hc := 128) rfl h (aggRows d (mlpArr (Hc := 128) rfl (gath h) ea Wm1 bm1 Wm2 bm2)) Wu1 bu1 Wu2 bu2

/-- The message perceptron of one layer, its four weight operands cut from the stacked arrays at offsets `o3`, `o2`. -/
def msgsAt (ea : FVec Ideal S1600000x64 .f32) (emW1 : FVec Ideal S3x128x64 .f32) (emb1 : FVec Ideal S3x64 .f32)
    (emW2 : FVec Ideal S3x64x64 .f32) (emb2 : FVec Ideal S3x64 .f32) (o3 : Fin 3 → ℕ) (o2 : Fin 2 → ℕ)
    (s128 : S3x128x64.Slices o3 S1x128x64) (s64 : S3x64x64.Slices o3 S1x64x64) (sv : S3x64.Slices o2 S1x64)
    (g : FVec Ideal S1600000x64 .f32) : FVec Ideal S1600000x64 .f32 :=
  mlpArr (Hc := 128) rfl g ea (mat128 emW1 o3 s128) (row64 (vec64 emb1 o2 sv)) (mat64 emW2 o3 s64) (row64 (vec64 emb2 o2 sv))

/-- One layer, its eight weight operands cut from the stacked arrays at offsets `o3`, `o2`. -/
def layerAt (gath : FVec Ideal S100000x64 .f32 → FVec Ideal S1600000x64 .f32) (d : IVec S1600000 32)
    (ea : FVec Ideal S1600000x64 .f32) (emW1 : FVec Ideal S3x128x64 .f32) (emb1 : FVec Ideal S3x64 .f32)
    (emW2 : FVec Ideal S3x64x64 .f32) (emb2 : FVec Ideal S3x64 .f32) (umW1 : FVec Ideal S3x128x64 .f32) (umb1 : FVec Ideal S3x64 .f32)
    (umW2 : FVec Ideal S3x64x64 .f32) (umb2 : FVec Ideal S3x64 .f32) (o3 : Fin 3 → ℕ) (o2 : Fin 2 → ℕ)
    (s128 : S3x128x64.Slices o3 S1x128x64) (s64 : S3x64x64.Slices o3 S1x64x64) (sv : S3x64.Slices o2 S1x64)
    (h : FVec Ideal S100000x64 .f32) : FVec Ideal S100000x64 .f32 :=
  layerWith gath d ea (mat128 emW1 o3 s128) (row64 (vec64 emb1 o2 sv)) (mat64 emW2 o3 s64) (row64 (vec64 emb2 o2 sv))
    (mat128 umW1 o3 s128) (row64 (vec64 umb1 o2 sv)) (mat64 umW2 o3 s64) (row64 (vec64 umb2 o2 sv)) h

def netWith (gath : FVec Ideal S100000x64 .f32 → FVec Ideal S1600000x64 .f32)
    (x : FVec Ideal S100000x32 .f32) (ei : IVec S2x1600000 32) (eattr : FVec Ideal S1600000x16 .f32) (bt : IVec S100000 32)
    (desc : FVec Ideal S1000x200 .f32) (nW : FVec Ideal S32x64 .f32) (nb : FVec Ideal S64 .f32) (eW : FVec Ideal S16x64 .f32)
    (eb : FVec Ideal S64 .f32) (emW1 : FVec Ideal S3x128x64 .f32) (emb1 : FVec Ideal S3x64 .f32) (emW2 : FVec Ideal S3x64x64 .f32)
    (emb2 : FVec Ideal S3x64 .f32) (umW1 : FVec Ideal S3x128x64 .f32) (umb1 : FVec Ideal S3x64 .f32)
    (umW2 : FVec Ideal S3x64x64 .f32) (umb2 : FVec Ideal S3x64 .f32) (roW1 : FVec Ideal S264x128 .f32)
    (rob1 : FVec Ideal S128 .f32) (roW2 : FVec Ideal S128x1 .f32) (rob2 : FVec Ideal S1 .f32) : FVec Ideal S1000 .f32 :=
  let d := dstOf ei
  let ea : FVec Ideal S1600000x64 .f32 := linArr eattr eW (row64 eb)
  let h0 : FVec Ideal S100000x64 .f32 := linArr x nW (row64 nb)
  let h1 := layerAt gath d ea emW1 emb1 emW2 emb2 umW1 umb1 umW2 umb2 ![0, 0, 0] ![0, 0] slices_S3x128x64_S1x128x64_0_0_0 slices_S3x64x64_S1x64x64_0_0_0 slices_S3x64_S1x64_0_0 h0
  let h2 := layerAt gath d ea emW1 emb1 emW2 emb2 umW1 umb1 umW2 umb2 ![1, 0, 0] ![1, 0] slices_S3x128x64_S1x128x64_1_0_0 slices_S3x64x64_S1x64x64_1_0_0 slices_S3x64_S1x64_1_0 h1
  let h3 := layerAt gath d ea emW1 emb1 emW2 emb2 umW1 umb1 umW2 umb2 ![2, 0, 0] ![2, 0] slices_S3x128x64_S1x128x64_2_0_0 slices_S3x64x64_S1x64x64_2_0_0 slices_S3x64_S1x64_2_0 h2
  squash (mlpArr (Hc := 264) rfl (poolRows bt h3) desc roW1 (row128 rob1) roW2 (row1 rob2))

end Cert.KernelIdeal.Glue

end
-- ==== Proof.LibDense.lean ====
import proofs.«408410_j14482629722785_2_alg».proof.Proof.DenseSpec
import Idealize.ShloMosaic.PureOps.Ideal.Laws
import Idealize.ShloMosaic.Lib.ValueLayout
import Idealize.ShloMosaic.Lib.Pipeline.Value
import Idealize.ShloMosaic.Lib.StackMember

noncomputable section

namespace Cert.Dense

open Idealize.ShloMosaic Idealize.ShloMosaic.ValueIdx

/-! Dense layers on rectangles read at one entry: a plain product, a broadcast bias row, two arrays side by side. -/

variable {M K N H Ha Hb Hc H1 H2 : ℕ}

/-- A plain product added to zero, read at `(r, c)`, is the sum over the contracted index, as the host's product is. -/
theorem matmul_plain_apply {φ₁ φ₂ : FTy} (prec : Option ContractPrecision) (x : FVec Ideal ⟨2, ![M, K]⟩ φ₁)
    (w : FVec Ideal ⟨2, ![K, N]⟩ φ₂) (r : Fin M) (c : Fin N) :
    matmul (F := Ideal) (DotDims.plain M K N) prec x w (constant _ .f32 0x00000000#32) (ix2 r c)
      = ∑ k : Fin K, x (ix2 r k) * w (ix2 k c) :=
  (Ideal.matmul_constant_zero_apply _ prec x w _).trans
    ((Ideal.dotGeneral_apply _ prec .single x w _).symm.trans (StackMember.dotGeneral_plain_apply prec x w r c))

/-- A `1 × H` row broadcast along the rows reads, at `(r, c)`, the row at `c`. -/
theorem bias_apply (h : (⟨2, ![1, H]⟩ : Shape).BroadcastsInDim ⟨2, ![M, H]⟩ ![0, 1]) (b : Idx2 1 H → EReal)
    (r : Fin M) (c : Fin H) : broadcastInDim ⟨2, ![M, H]⟩ ![0, 1] h b (ix2 r c) = b (ix2 0 c) :=
  broadcastInDim_apply _ h b (ix2 r c) (ix2 0 c) fun a => match a with
    | ⟨0, _⟩ => (if_pos rfl).symm
    | ⟨1, _⟩ => by
      show c.val = if H = 1 then 0 else c.val
      split
      · have := c.isLt; omega
      · rfl

/-- The zero scalar broadcast to any shape reads `0` everywhere. -/
theorem zero_apply {t : Shape} (h : (⟨0, ![]⟩ : Shape).BroadcastsInDim t ![]) (i : t.Idx) :
    broadcastInDim t ![] h (constant (F := Ideal) ⟨0, ![]⟩ .f32 0x00000000#32) i = 0 :=
  (broadcastInDim_apply _ h _ i ix0 fun a => a.elim0).trans Ideal.ofBits_zero_f32

/-- Two arrays laid side by side along the columns read, at `(r, k)`, their rows `r` side by side at `k`. -/
theorem cat_apply (hc : Hc = Ha + Hb) (h : Shape.Concatenates [⟨2, ![M, Ha]⟩, ⟨2, ![M, Hb]⟩] ⟨2, ![M, Hc]⟩ 1)
    (a : Idx2 M Ha → EReal) (b : Idx2 M Hb → EReal) (r : Fin M) (k : Fin Hc) :
    concatenate ⟨2, ![M, Hc]⟩ 1 [⟨⟨2, ![M, Ha]⟩, a⟩, ⟨⟨2, ![M, Hb]⟩, b⟩] h (ix2 r k) = catRow hc (rowOf a r) (rowOf b r) k := by
  unfold catRow
  split
  · next hk =>
    exact concatenate_pair_apply_left 1 a b h (ix2 r k) rfl (ix2 r ⟨k.val, hk⟩) fun d => match d with
      | ⟨0, _⟩ => rfl
      | ⟨1, _⟩ => rfl
  · next hk =>
    exact concatenate_pair_apply_right 1 a b h (ix2 r k) rfl rfl (ix2 r ⟨k.val - Ha, by have := k.isLt; omega⟩)
      (fun d hd => match d, hd with
        | ⟨0, _⟩, _ => rfl
        | ⟨1, _⟩, hd => absurd rfl hd)
      (by show k.val - Ha + Ha = k.val; omega)

/-- The host's linear layer: a product plus a broadcast bias row. -/
theorem lin_host (h : (⟨2, ![1, H]⟩ : Shape).BroadcastsInDim ⟨2, ![M, H]⟩ ![0, 1]) (x : FVec Ideal ⟨2, ![M, K]⟩ .f32)
    (W : FVec Ideal ⟨2, ![K, H]⟩ .f32) (b : FVec Ideal ⟨2, ![1, H]⟩ .f32) :
    addf (F := Ideal) (Host.dotGeneral (DotDims.plain M K H) none x W) (broadcastInDim ⟨2, ![M, H]⟩ ![0, 1] h b) = linArr x W b := by
  funext i
  obtain ⟨r, c, rfl⟩ : ∃ (r : Fin M) (c : Fin H), i = ix2 r c := ⟨i 0, i 1, eq_ix2 i⟩
  rw [addf_apply, StackMember.dotGeneral_plain_apply, bias_apply]
  rfl

/-- The host's perceptron: concatenation, product, bias, maximum with zero, product, bias. -/
theorem mlp_host (hc : Hc = Ha + Hb) (hcat : Shape.Concatenates [⟨2, ![M, Ha]⟩, ⟨2, ![M, Hb]⟩] ⟨2, ![M, Hc]⟩ 1)
    (h1 : (⟨2, ![1, H1]⟩ : Shape).BroadcastsInDim ⟨2, ![M, H1]⟩ ![0, 1]) (hz : (⟨0, ![]⟩ : Shape).BroadcastsInDim ⟨2, ![M, H1]⟩ ![])
    (h2 : (⟨2, ![1, H2]⟩ : Shape).BroadcastsInDim ⟨2, ![M, H2]⟩ ![0, 1])
    (a : FVec Ideal ⟨2, ![M, Ha]⟩ .f32) (b : FVec Ideal ⟨2, ![M, Hb]⟩ .f32) (W1 : FVec Ideal ⟨2, ![Hc, H1]⟩ .f32)
    (b1 : FVec Ideal ⟨2, ![1, H1]⟩ .f32) (W2 : FVec Ideal ⟨2, ![H1, H2]⟩ .f32) (b2 : FVec Ideal ⟨2, ![1, H2]⟩ .f32) :
    addf (F := Ideal) (Host.dotGeneral (DotDims.plain M H1 H2) none
        (maximumf (addf (Host.dotGeneral (DotDims.plain M Hc H1) none
            (concatenate ⟨2, ![M, Hc]⟩ 1 [⟨⟨2, ![M, Ha]⟩, a⟩, ⟨⟨2, ![M, Hb]⟩, b⟩] hcat) W1)
          (broadcastInDim ⟨2, ![M, H1]⟩ ![0, 1] h1 b1)) (broadcastInDim ⟨2, ![M, H1]⟩ ![] hz (constant ⟨0, ![]⟩ .f32 0x00000000#32))) W2)
      (broadcastInDim ⟨2, ![M, H2]⟩ ![0, 1] h2 b2)
      = mlpArr hc a b W1 b1 W2 b2 := by
  funext i
  obtain ⟨r, c, rfl⟩ : ∃ (r : Fin M) (c : Fin H2), i = ix2 r c := ⟨i 0, i 1, eq_ix2 i⟩
  rw [mlpArr_apply, addf_apply, StackMember.dotGeneral_plain_apply, bias_apply]
  unfold mlpRow
  refine congrArg (· + b2 (ix2 0 c)) (Finset.sum_congr rfl fun k2 _ => ?_)
  rw [maximumf_apply, addf_apply, StackMember.dotGeneral_plain_apply, bias_apply, zero_apply]
  refine congrArg (fun t => max (t + b1 (ix2 0 k2)) 0 * W2 (ix2 k2 c)) (Finset.sum_congr rfl fun k1 _ => ?_)
  rw [cat_apply hc]

/-- A kernel's linear layer on a block: a product into zero plus the bias row, at `(r, c)`. -/
theorem lin_block_apply (hφ : FTy.bf16.bits < FTy.f32.bits) (hs : (⟨2, ![1, H]⟩ : Shape).ShapeCasts ⟨2, ![1, H]⟩)
    (hb : (⟨2, ![1, H]⟩ : Shape).Broadcasts ⟨2, ![M, H]⟩) (x : FVec Ideal ⟨2, ![M, K]⟩ .f32) (W : FVec Ideal ⟨2, ![K, H]⟩ .f32)
    (b : FVec Ideal ⟨2, ![1, H]⟩ .f32) (r : Fin M) (c : Fin H) :
    addf (F := Ideal) (matmul (DotDims.plain M K H) none (truncf .bf16 x hφ) (truncf .bf16 W hφ) (constant _ .f32 0x00000000#32))
        (broadcastTo ⟨2, ![M, H]⟩ (shapeCast ⟨2, ![1, H]⟩ b hs) hb) (ix2 r c)
      = linRow (rowOf x r) W b c := by
  rw [addf_apply, matmul_plain_apply, broadcastTo_1b_ab_apply, shapeCast_self]
  rfl

/-- A kernel's perceptron on a block, at `(r, c)`. -/
theorem mlp_block_apply (hc : Hc = Ha + Hb) (hφ : FTy.bf16.bits < FTy.f32.bits)
    (hcat : Shape.Concatenates [⟨2, ![M, Ha]⟩, ⟨2, ![M, Hb]⟩] ⟨2, ![M, Hc]⟩ 1)
    (h1 : (⟨2, ![1, H1]⟩ : Shape).Broadcasts ⟨2, ![M, H1]⟩) (h2 : (⟨2, ![1, H2]⟩ : Shape).Broadcasts ⟨2, ![M, H2]⟩)
    (a : FVec Ideal ⟨2, ![M, Ha]⟩ .f32) (b : FVec Ideal ⟨2, ![M, Hb]⟩ .f32) (W1 : FVec Ideal ⟨2, ![Hc, H1]⟩ .f32)
    (b1 : FVec Ideal ⟨2, ![1, H1]⟩ .f32) (W2 : FVec Ideal ⟨2, ![H1, H2]⟩ .f32) (b2 : FVec Ideal ⟨2, ![1, H2]⟩ .f32)
    (r : Fin M) (c : Fin H2) :
    addf (F := Ideal) (matmul (DotDims.plain M H1 H2) none
        (truncf .bf16 (maximumf (addf (matmul (DotDims.plain M Hc H1) none
            (truncf .bf16 (concatenate ⟨2, ![M, Hc]⟩ 1 [⟨⟨2, ![M, Ha]⟩, a⟩, ⟨⟨2, ![M, Hb]⟩, b⟩] hcat) hφ) (truncf .bf16 W1 hφ)
            (constant _ .f32 0x00000000#32)) (broadcastTo ⟨2, ![M, H1]⟩ b1 h1))
          (broadcast ⟨2, ![M, H1]⟩ (Scalar.ofBits .f32 0x00000000#32))) hφ) (truncf .bf16 W2 hφ) (constant _ .f32 0x00000000#32))
        (broadcastTo ⟨2, ![M, H2]⟩ b2 h2) (ix2 r c)
      = mlpRow hc (rowOf a r) (rowOf b r) W1 b1 W2 b2 c := by
  rw [addf_apply, matmul_plain_apply, broadcastTo_1b_ab_apply]
  unfold mlpRow
  refine congrArg (· + b2 (ix2 0 c)) (Finset.sum_congr rfl fun k2 _ => ?_)
  rw [truncf_apply, truncf_apply, maximumf_apply, addf_apply, matmul_plain_apply, broadcastTo_1b_ab_apply, broadcast_apply,
    show Scalar.ofBits (F := Ideal) .f32 0x00000000#32 = (0 : EReal) from Ideal.ofBits_zero_f32]
  refine congrArg (fun t => max (t + b1 (ix2 0 k2)) 0 * W2 (ix2 k2 c)) (Finset.sum_congr rfl fun k1 _ => ?_)
  rw [truncf_apply, truncf_apply, cat_apply hc]

end Cert.Dense

end
-- ==== Proof.KPayMlp.lean ====
import proofs.«408410_j14482629722785_2_alg».proof.Proof.Gen.KernelIdeal.Skeleton
import proofs.«408410_j14482629722785_2_alg».proof.Proof.LibDense

noncomputable section

namespace Cert.KernelIdeal.Pay

open Cert.KernelIdeal Cert.KernelIdeal.Gen Idealize.ShloMosaic Idealize.ShloMosaic.ValueIdx Cert.Dense

theorem k2_pay1_apply (a b : Vec Ideal S5000x64 .f32) (W1 : Vec Ideal S128x64 .f32) (b1 : Vec Ideal S1x64 .f32)
    (W2 : Vec Ideal S64x64 .f32) (b2 : Vec Ideal S1x64 .f32) (r : Fin 5000) (c : Fin 64) :
    k2_pay1 (F := Ideal) a b W1 b1 W2 b2 (ix2 r c) = mlpRow (Hc := 128) rfl (rowOf a r) (rowOf b r) W1 b1 W2 b2 c := by
  unfold k2_pay1
  simp only [shapeCast_self]
  rw [shapeCast_self, shapeCast_self]
  exact mlp_block_apply rfl _ _ _ _ a b W1 b1 W2 b2 r c

theorem k8_pay1_apply (a : Vec Ideal S1000x64 .f32) (b : Vec Ideal S1000x200 .f32) (W1 : Vec Ideal S264x128 .f32)
    (b1 : Vec Ideal S1x128 .f32) (W2 : Vec Ideal S128x1 .f32) (b2 : Vec Ideal S1x1 .f32) (r : Fin 1000) (c : Fin 1) :
    k8_pay1 (F := Ideal) a b W1 b1 W2 b2 (ix2 r c) = mlpRow (Hc := 264) rfl (rowOf a r) (rowOf b r) W1 b1 W2 b2 c := by
  unfold k8_pay1
  simp only [shapeCast_self]
  rw [shapeCast_self]
  exact mlp_block_apply rfl _ _ _ _ a b W1 b1 W2 b2 r c

end Cert.KernelIdeal.Pay

end
-- ==== Proof.KPayLin.lean ====
import proofs.«408410_j14482629722785_2_alg».proof.Proof.Gen.KernelIdeal.Skeleton
import proofs.«408410_j14482629722785_2_alg».proof.Proof.LibDense

noncomputable section

namespace Cert.KernelIdeal.Pay

open Cert.KernelIdeal Cert.KernelIdeal.Gen Idealize.ShloMosaic Idealize.ShloMosaic.ValueIdx Cert.Dense

theorem k0_pay1_apply (x : Vec Ideal S10000x32 .f32) (W : Vec Ideal S32x64 .f32) (b : Vec Ideal S1x64 .f32)
    (r : Fin 10000) (c : Fin 64) :
    k0_pay1 (F := Ideal) x W b (ix2 r c) = linRow (rowOf x r) W b c :=
  lin_block_apply _ _ _ x W b r c

theorem k1_pay1_apply (x : Vec Ideal S10000x16 .f32) (W : Vec Ideal S16x64 .f32) (b : Vec Ideal S1x64 .f32)
    (r : Fin 10000) (c : Fin 64) :
    k1_pay1 (F := Ideal) x W b (ix2 r c) = linRow (rowOf x r) W b c :=
  lin_block_apply _ _ _ x W b r c

end Cert.KernelIdeal.Pay

end
-- ==== Proof.LibBlocks.lean ====
import proofs.«408410_j14482629722785_2_alg».proof.Proof.DenseSpec
import Idealize.ShloMosaic.Lib.Pipeline.Value

noncomputable section

namespace Cert.Dense

open Idealize.ShloMosaic Idealize.ShloMosaic.ValueIdx

/-- `e` puts a block of `B` rows at rows `B·s, …` of an array of the same width. -/
def RowsAt {B M K : ℕ} (s : ℕ) (e : Idx2 B K → Idx2 M K) : Prop :=
  ∀ x, ((e x) 0).val = B * s + (x 0).val ∧ ((e x) 1).val = (x 1).val

namespace RowsAt

variable {B M K s : ℕ} {e : Idx2 B K → Idx2 M K}

theorem apply (h : RowsAt s e) (r : Fin B) (k : Fin K) (R : Fin M) (hR : R.val = B * s + r.val) :
    e (ix2 r k) = ix2 R k :=
  funext fun a => Fin.ext (by
    match a with
    | ⟨0, _⟩ => exact (h _).1.trans hR.symm
    | ⟨1, _⟩ => exact (h _).2)

theorem lt (h : RowsAt s e) (r : Fin B) (k : Fin K) : B * s + r.val < M :=
  lt_of_eq_of_lt (h (ix2 r k)).1.symm (idx2_lt0 _)

/-- A set holding every image of the embedding holds every index of the array in the block's rows. -/
theorem mem_of_rows (h : RowsAt s e) {S : Finset (Idx2 M K)} (hS : ∀ x, e x ∈ S) (i : Idx2 M K) (hlo : B * s ≤ (i 0).val)
    (hhi : (i 0).val < B * s + B) : i ∈ S :=
  ((h.apply ⟨(i 0).val - B * s, by omega⟩ (i 1) (i 0) (by show (i 0).val = B * s + ((i 0).val - B * s); omega)).trans
    (eq_ix2 i).symm) ▸ hS _

end RowsAt

/-- A window's block index is `(s, 0)`. -/
abbrev IdxAt (idx : Fin 2 → ℕ) (s : ℕ) : Prop := idx 0 = s ∧ idx 1 = 0

/-- The unit-stride rectangle of a window whose block index is `(s, 0)` embeds its block at rows `B·s, …`. -/
theorem rowsAt_block {B M K s : ℕ} {idx : Fin 2 → ℕ} {inb} (h : IdxAt idx s) :
    RowsAt (B := B) s (Rect.unit (s := (⟨2, ![M, K]⟩ : Shape)) (fun a => idx a * ![B, K] a) ![B, K] inb).emb := fun x =>
  ⟨by show idx 0 * B + 1 * (x 0).val = _; rw [h.1, Nat.mul_comm, Nat.one_mul],
    by show idx 1 * K + 1 * (x 1).val = _; rw [h.2, Nat.zero_mul, Nat.zero_add, Nat.one_mul]⟩

/-- Of the array `A`, block `X` holds rows `B·s, …`. -/
def IsRows {B M K : ℕ} (s : ℕ) (A : Idx2 M K → EReal) (X : Idx2 B K → EReal) : Prop :=
  ∃ e, RowsAt s e ∧ ∀ x, X x = A (e x)

/-- An array read through such a rectangle is its rows `B·s, …`. -/
theorem isRows_block {B M K s : ℕ} {idx : Fin 2 → ℕ} {inb} (h : IdxAt idx s) (A : Idx2 M K → EReal) :
    IsRows s A (fun x => A ((Rect.unit (s := (⟨2, ![M, K]⟩ : Shape)) (fun a => idx a * ![B, K] a) ![B, K] inb).emb x)) :=
  ⟨_, rowsAt_block h, fun _ => rfl⟩

namespace IsRows

variable {B M K s : ℕ} {X : Idx2 B K → EReal} {A : Idx2 M K → EReal}

theorem rowOf (h : IsRows s A X) (r : Fin B) (R : Fin M) (hR : R.val = B * s + r.val) : Dense.rowOf X r = Dense.rowOf A R := by
  obtain ⟨e, he, q⟩ := h
  exact funext fun k => (q _).trans (congrArg A (he.apply r k R hR))

/-- A block as tall as its array, at row 0, is the array. -/
theorem eq_self {X W : Idx2 M K → EReal} (h : IsRows 0 W X) : X = W := by
  obtain ⟨e, he, q⟩ := h
  exact funext fun x => (q x).trans (congrArg W (funext fun a => Fin.ext (by
    match a with
    | ⟨0, _⟩ => exact (he x).1.trans (by rw [Nat.mul_zero, Nat.zero_add]; rfl)
    | ⟨1, _⟩ => exact (he x).2)))

end IsRows

/-- A body that is the linear row function on its blocks' rows stores rows `B·s, …` of the linear layer of the arrays. -/
theorem lin_block {B M K H s : ℕ}
    {pay : (Idx2 B K → EReal) → (Idx2 K H → EReal) → (Idx2 1 H → EReal) → Idx2 B H → EReal}
    (hpay : ∀ x W b r c, pay x W b (ix2 r c) = linRow (Dense.rowOf x r) W b c)
    {X : Idx2 M K → EReal} {W : Idx2 K H → EReal} {b : Idx2 1 H → EReal}
    {xB : Idx2 B K → EReal} {wB : Idx2 K H → EReal} {bB : Idx2 1 H → EReal} {oB : Idx2 B H → EReal}
    (hx : IsRows s X xB) (h1 : IsRows 0 W wB) (h2 : IsRows 0 b bB) (ho : IsRows s (linArr X W b) oB) :
    pay xB wB bB = oB := by
  obtain ⟨eo, ho, qo⟩ := ho
  funext j
  obtain ⟨r, q, rfl⟩ : ∃ (r : Fin B) (q : Fin H), j = ix2 r q := ⟨j 0, j 1, eq_ix2 j⟩
  rw [hpay, h1.eq_self, h2.eq_self, hx.rowOf r ⟨_, ho.lt r q⟩ rfl, qo, ho.apply r q ⟨_, ho.lt r q⟩ rfl, linArr_apply]

/-- A body that is the perceptron's row function on its blocks' rows stores rows `B·s, …` of the perceptron of the arrays. -/
theorem mlp_block {B M Ha Hb Hc H1 H2 s : ℕ} {hc : Hc = Ha + Hb}
    {pay : (Idx2 B Ha → EReal) → (Idx2 B Hb → EReal) → (Idx2 Hc H1 → EReal) → (Idx2 1 H1 → EReal) → (Idx2 H1 H2 → EReal) →
      (Idx2 1 H2 → EReal) → Idx2 B H2 → EReal}
    (hpay : ∀ a b W1 b1 W2 b2 r c, pay a b W1 b1 W2 b2 (ix2 r c) = mlpRow hc (Dense.rowOf a r) (Dense.rowOf b r) W1 b1 W2 b2 c)
    {A : Idx2 M Ha → EReal} {Bm : Idx2 M Hb → EReal} {W1 : Idx2 Hc H1 → EReal} {b1 : Idx2 1 H1 → EReal}
    {W2 : Idx2 H1 H2 → EReal} {b2 : Idx2 1 H2 → EReal}
    {aB : Idx2 B Ha → EReal} {bB : Idx2 B Hb → EReal} {w1B : Idx2 Hc H1 → EReal} {b1B : Idx2 1 H1 → EReal}
    {w2B : Idx2 H1 H2 → EReal} {b2B : Idx2 1 H2 → EReal} {oB : Idx2 B H2 → EReal}
    (ha : IsRows s A aB) (hb : IsRows s Bm bB) (h1 : IsRows 0 W1 w1B) (h2 : IsRows 0 b1 b1B) (h3 : IsRows 0 W2 w2B)
    (h4 : IsRows 0 b2 b2B) (ho : IsRows s (mlpArr hc A Bm W1 b1 W2 b2) oB) :
    pay aB bB w1B b1B w2B b2B = oB := by
  obtain ⟨eo, ho, qo⟩ := ho
  funext j
  obtain ⟨r, q, rfl⟩ : ∃ (r : Fin B) (q : Fin H2), j = ix2 r q := ⟨j 0, j 1, eq_ix2 j⟩
  rw [hpay, h1.eq_self, h2.eq_self, h3.eq_self, h4.eq_self, ha.rowOf r ⟨_, ho.lt r q⟩ rfl, hb.rowOf r ⟨_, ho.lt r q⟩ rfl,
    qo, ho.apply r q ⟨_, ho.lt r q⟩ rfl, mlpArr_apply]

end Cert.Dense

end
-- ==== Proof.KRegs.lean ====
import proofs.«408410_j14482629722785_2_alg».proof.Proof.Gen.KernelIdeal.Frame
import proofs.«408410_j14482629722785_2_alg».proof.Proof.KPayMlp
import proofs.«408410_j14482629722785_2_alg».proof.Proof.KPayLin
import proofs.«408410_j14482629722785_2_alg».proof.Proof.LibBlocks

noncomputable section

namespace Cert.KernelIdeal.Reg

open Cert.KernelIdeal Cert.KernelIdeal.Gen Idealize.ShloMosaic Idealize.ShloMosaic.TcCoe Idealize.ShloMosaic.ValueIdx Cert.Dense
open Idealize.ShloMosaic.Pipeline (Dat Cfg Window)

variable (V : (c : Dev nD) → (b : Ref sig .tc) → Buf (Elt Ideal) ((c : Thread nD τ).loc b))

theorem hz : (![0, 0] : Fin 2 → ℕ) = fun _ => 0 := funext fun a => by fin_cases a <;> rfl

theorem idx0 : ∀ t : Fin cfg0.N,
    IdxAt (win0_0.index t) t.val ∧ IdxAt (win0_1.index t) 0 ∧ IdxAt (win0_2.index t) 0 ∧ IdxAt (win0_3.index t) t.val :=
  (by decide +kernel : ∀ t : Fin grid0.N, _)

theorem cov0 (i : S100000x64.Idx) : ∃ t : Fin cfg0.N, (cfg0.win 3).flush t = true ∧ i ∈ ((cfg0.win 3).blk t).view.set := by
  have hi : (i 0).val < 100000 := (i 0).isLt
  have ht : (i 0).val / 10000 < 10 := by omega
  obtain ⟨-, -, -, o⟩ := idx0 ⟨_, ht⟩
  refine ⟨⟨_, ht⟩, flush0_3 _, ?_⟩
  exact (rowsAt_block (B := 10000) (M := 100000) (K := 64) (s := (i 0).val / 10000) o).mem_of_rows (View.emb_mem_set _) i
    (by omega) (by omega)

theorem out0 (c : Dev nD) :
    (dat0 (F := Ideal) V c).arrAt 3 cfg0.N = linArr (V c main_arg0) (V c main_arg5) (V c main_v4) :=
  (dat0 (F := Ideal) V c).arrAt_eq_of_cover 3 _ (fun t _ => by
    obtain ⟨x, w, b, o⟩ := idx0 t
    show (dat0 (F := Ideal) V c).after 3 t = _
    rw [after0_3]
    unfold out0_3
    rw [View.canon_unit_zero hz]
    simp only [View.ld_unit_zero (S := S10000x32) hz, View.ld_unit_zero (S := S32x64) hz, View.ld_unit_zero (S := S1x64) hz]
    exact lin_block Pay.k0_pay1_apply (isRows_block x (V c main_arg0)) (isRows_block w (V c main_arg5))
      (isRows_block b (V c main_v4)) (isRows_block o _)) cov0

theorem idx1 : ∀ t : Fin cfg1.N,
    IdxAt (win1_0.index t) t.val ∧ IdxAt (win1_1.index t) 0 ∧ IdxAt (win1_2.index t) 0 ∧ IdxAt (win1_3.index t) t.val :=
  (by decide +kernel : ∀ t : Fin grid1.N, _)

theorem cov1 (i : S1600000x64.Idx) : ∃ t : Fin cfg1.N, (cfg1.win 3).flush t = true ∧ i ∈ ((cfg1.win 3).blk t).view.set := by
  have hi : (i 0).val < 1600000 := (i 0).isLt
  have ht : (i 0).val / 10000 < 160 := by omega
  obtain ⟨-, -, -, o⟩ := idx1 ⟨_, ht⟩
  refine ⟨⟨_, ht⟩, flush1_3 _, ?_⟩
  exact (rowsAt_block (B := 10000) (M := 1600000) (K := 64) (s := (i 0).val / 10000) o).mem_of_rows (View.emb_mem_set _) i
    (by omega) (by omega)

theorem out1 (c : Dev nD) :
    (dat1 (F := Ideal) V c).arrAt 3 cfg1.N = linArr (V c main_arg2) (V c main_arg7) (V c main_v6) :=
  (dat1 (F := Ideal) V c).arrAt_eq_of_cover 3 _ (fun t _ => by
    obtain ⟨x, w, b, o⟩ := idx1 t
    show (dat1 (F := Ideal) V c).after 3 t = _
    rw [after1_3]
    unfold out1_3
    rw [View.canon_unit_zero hz]
    simp only [View.ld_unit_zero (S := S10000x16) hz, View.ld_unit_zero (S := S16x64) hz, View.ld_unit_zero (S := S1x64) hz]
    exact lin_block Pay.k1_pay1_apply (isRows_block x (V c main_arg2)) (isRows_block w (V c main_arg7))
      (isRows_block b (V c main_v6)) (isRows_block o _)) cov1

/-- The perceptron body stores once, whole, a value of its whole loads. -/
theorem stored_mlp {M s : ℕ} {A Bm : Idx2 M 64 → EReal} {W1 : Idx2 128 64 → EReal} {b1 : Idx2 1 64 → EReal}
    {W2 : Idx2 64 64 → EReal} {b2 : Idx2 1 64 → EReal}
    {aB bB oB : Idx2 5000 64 → EReal} {w1B : Idx2 128 64 → EReal} {b1B b2B : Idx2 1 64 → EReal} {w2B : Idx2 64 64 → EReal}
    (ha : IsRows s A aB) (hb : IsRows s Bm bB) (h1 : IsRows 0 W1 w1B) (h2 : IsRows 0 b1 b1B) (h3 : IsRows 0 W2 w2B)
    (h4 : IsRows 0 b2 b2B) (ho : IsRows s (mlpArr (Hc := 128) rfl A Bm W1 b1 W2 b2) oB) :
    out2_6 (F := Ideal) aB bB w1B b1B w2B b2B = oB := by
  unfold out2_6
  rw [View.canon_unit_zero hz]
  simp only [View.ld_unit_zero (S := S5000x64) hz, View.ld_unit_zero (S := S128x64) hz, View.ld_unit_zero (S := S1x64) hz,
    View.ld_unit_zero (S := S64x64) hz]
  exact mlp_block Pay.k2_pay1_apply ha hb h1 h2 h3 h4 ho

theorem idx2 : ∀ t : Fin cfg2.N,
    IdxAt (win2_0.index t) t.val ∧ IdxAt (win2_1.index t) t.val ∧ IdxAt (win2_2.index t) 0 ∧ IdxAt (win2_3.index t) 0
    ∧ IdxAt (win2_4.index t) 0 ∧ IdxAt (win2_5.index t) 0 ∧ IdxAt (win2_6.index t) t.val :=
  (by decide +kernel : ∀ t : Fin grid2.N, _)

theorem cov2 (i : S1600000x64.Idx) : ∃ t : Fin cfg2.N, (cfg2.win 6).flush t = true ∧ i ∈ ((cfg2.win 6).blk t).view.set := by
  have hi : (i 0).val < 1600000 := (i 0).isLt
  have ht : (i 0).val / 5000 < 320 := by omega
  obtain ⟨-, -, -, -, -, -, o⟩ := idx2 ⟨_, ht⟩
  refine ⟨⟨_, ht⟩, flush2_6 _, ?_⟩
  exact (rowsAt_block (B := 5000) (M := 1600000) (K := 64) (s := (i 0).val / 5000) o).mem_of_rows (View.emb_mem_set _) i
    (by omega) (by omega)

theorem out2 (c : Dev nD) :
    (dat2 (F := Ideal) V c).arrAt 6 cfg2.N
      = mlpArr (Hc := 128) rfl (V c main_v8) (V c main_v7) (V c main_v10) (V c main_v17) (V c main_v14) (V c main_v18) :=
  (dat2 (F := Ideal) V c).arrAt_eq_of_cover 6 _ (fun t _ => by
    obtain ⟨a, b, w1, b1, w2, b2, o⟩ := idx2 t
    show (dat2 (F := Ideal) V c).after 6 t = _
    rw [after2_6]
    exact stored_mlp (isRows_block a (V c main_v8)) (isRows_block b (V c main_v7)) (isRows_block w1 (V c main_v10))
      (isRows_block b1 (V c main_v17)) (isRows_block w2 (V c main_v14)) (isRows_block b2 (V c main_v18)) (isRows_block o _))
    cov2

theorem idx3 : ∀ t : Fin cfg3.N,
    IdxAt (win3_0.index t) t.val ∧ IdxAt (win3_1.index t) t.val ∧ IdxAt (win3_2.index t) 0 ∧ IdxAt (win3_3.index t) 0
    ∧ IdxAt (win3_4.index t) 0 ∧ IdxAt (win3_5.index t) 0 ∧ IdxAt (win3_6.index t) t.val :=
  (by decide +kernel : ∀ t : Fin grid3.N, _)

theorem cov3 (i : S100000x64.Idx) : ∃ t : Fin cfg3.N, (cfg3.win 6).flush t = true ∧ i ∈ ((cfg3.win 6).blk t).view.set := by
  have hi : (i 0).val < 100000 := (i 0).isLt
  have ht : (i 0).val / 5000 < 20 := by omega
  obtain ⟨-, -, -, -, -, -, o⟩ := idx3 ⟨_, ht⟩
  refine ⟨⟨_, ht⟩, flush3_6 _, ?_⟩
  exact (rowsAt_block (B := 5000) (M := 100000) (K := 64) (s := (i 0).val / 5000) o).mem_of_rows (View.emb_mem_set _) i
    (by omega) (by omega)

theorem out3 (c : Dev nD) :
    (dat3 (F := Ideal) V c).arrAt 6 cfg3.N
      = mlpArr (Hc := 128) rfl (V c main_v5) (V c main_v22) (V c main_v24) (V c main_v31) (V c main_v28) (V c main_v32) :=
  (dat3 (F := Ideal) V c).arrAt_eq_of_cover 6 _ (fun t _ => by
    obtain ⟨a, b, w1, b1, w2, b2, o⟩ := idx3 t
    show (dat3 (F := Ideal) V c).after 6 t = _
    rw [after3_6]
    exact stored_mlp (isRows_block a (V c main_v5)) (isRows_block b (V c main_v22)) (isRows_block w1 (V c main_v24))
      (isRows_block b1 (V c main_v31)) (isRows_block w2 (V c main_v28)) (isRows_block b2 (V c main_v32)) (isRows_block o _))
    cov3

theorem idx4 : ∀ t : Fin cfg4.N,
    IdxAt (win4_0.index t) t.val ∧ IdxAt (win4_1.index t) t.val ∧ IdxAt (win4_2.index t) 0 ∧ IdxAt (win4_3.index t) 0
    ∧ IdxAt (win4_4.index t) 0 ∧ IdxAt (win4_5.index t) 0 ∧ IdxAt (win4_6.index t) t.val :=
  (by decide +kernel : ∀ t : Fin grid4.N, _)

theorem cov4 (i : S1600000x64.Idx) : ∃ t : Fin cfg4.N, (cfg4.win 6).flush t = true ∧ i ∈ ((cfg4.win 6).blk t).view.set := by
  have hi : (i 0).val < 1600000 := (i 0).isLt
  have ht : (i 0).val / 5000 < 320 := by omega
  obtain ⟨-, -, -, -, -, -, o⟩ := idx4 ⟨_, ht⟩
  refine ⟨⟨_, ht⟩, flush4_6 _, ?_⟩
  exact (rowsAt_block (B := 5000) (M := 1600000) (K := 64) (s := (i 0).val / 5000) o).mem_of_rows (View.emb_mem_set _) i
    (by omega) (by omega)

theorem out4 (c : Dev nD) :
    (dat4 (F := Ideal) V c).arrAt 6 cfg4.N
      = mlpArr (Hc := 128) rfl (V c main_v34) (V c main_v7) (V c main_v36) (V c main_v43) (V c main_v40) (V c main_v44) :=
  (dat4 (F := Ideal) V c).arrAt_eq_of_cover 6 _ (fun t _ => by
    obtain ⟨a, b, w1, b1, w2, b2, o⟩ := idx4 t
    show (dat4 (F := Ideal) V c).after 6 t = _
    rw [after4_6]
    exact stored_mlp (isRows_block a (V c main_v34)) (isRows_block b (V c main_v7)) (isRows_block w1 (V c main_v36))
      (isRows_block b1 (V c main_v43)) (isRows_block w2 (V c main_v40)) (isRows_block b2 (V c main_v44)) (isRows_block o _))
    cov4

theorem idx5 : ∀ t : Fin cfg5.N,
    IdxAt (win5_0.index t) t.val ∧ IdxAt (win5_1.index t) t.val ∧ IdxAt (win5_2.index t) 0 ∧ IdxAt (win5_3.index t) 0
    ∧ IdxAt (win5_4.index t) 0 ∧ IdxAt (win5_5.index t) 0 ∧ IdxAt (win5_6.index t) t.val :=
  (by decide +kernel : ∀ t : Fin grid5.N, _)

theorem cov5 (i : S100000x64.Idx) : ∃ t : Fin cfg5.N, (cfg5.win 6).flush t = true ∧ i ∈ ((cfg5.win 6).blk t).view.set := by
  have hi : (i 0).val < 100000 := (i 0).isLt
  have ht : (i 0).val / 5000 < 20 := by omega
  obtain ⟨-, -, -, -, -, -, o⟩ := idx5 ⟨_, ht⟩
  refine ⟨⟨_, ht⟩, flush5_6 _, ?_⟩
  exact (rowsAt_block (B := 5000) (M := 100000) (K := 64) (s := (i 0).val / 5000) o).mem_of_rows (View.emb_mem_set _) i
    (by omega) (by omega)

theorem out5 (c : Dev nD) :
    (dat5 (F := Ideal) V c).arrAt 6 cfg5.N
      = mlpArr (Hc := 128) rfl (V c main_v33) (V c main_v48) (V c main_v50) (V c main_v57) (V c main_v54) (V c main_v58) :=
  (dat5 (F := Ideal) V c).arrAt_eq_of_cover 6 _ (fun t _ => by
    obtain ⟨a, b, w1, b1, w2, b2, o⟩ := idx5 t
    show (dat5 (F := Ideal) V c).after 6 t = _
    rw [after5_6]
    exact stored_mlp (isRows_block a (V c main_v33)) (isRows_block b (V c main_v48)) (isRows_block w1 (V c main_v50))
      (isRows_block b1 (V c main_v57)) (isRows_block w2 (V c main_v54)) (isRows_block b2 (V c main_v58)) (isRows_block o _))
    cov5

theorem idx6 : ∀ t : Fin cfg6.N,
    IdxAt (win6_0.index t) t.val ∧ IdxAt (win6_1.index t) t.val ∧ IdxAt (win6_2.index t) 0 ∧ IdxAt (win6_3.index t) 0
    ∧ IdxAt (win6_4.index t) 0 ∧ IdxAt (win6_5.index t) 0 ∧ IdxAt (win6_6.index t) t.val :=
  (by decide +kernel : ∀ t : Fin grid6.N, _)

theorem cov6 (i : S1600000x64.Idx) : ∃ t : Fin cfg6.N, (cfg6.win 6).flush t = true ∧ i ∈ ((cfg6.win 6).blk t).view.set := by
  have hi : (i 0).val < 1600000 := (i 0).isLt
  have ht : (i 0).val / 5000 < 320 := by omega
  obtain ⟨-, -, -, -, -, -, o⟩ := idx6 ⟨_, ht⟩
  refine ⟨⟨_, ht⟩, flush6_6 _, ?_⟩
  exact (rowsAt_block (B := 5000) (M := 1600000) (K := 64) (s := (i 0).val / 5000) o).mem_of_rows (View.emb_mem_set _) i
    (by omega) (by omega)

theorem out6 (c : Dev nD) :
    (dat6 (F := Ideal) V c).arrAt 6 cfg6.N
      = mlpArr (Hc := 128) rfl (V c main_v60) (V c main_v7) (V c main_v62) (V c main_v69) (V c main_v66) (V c main_v70) :=
  (dat6 (F := Ideal) V c).arrAt_eq_of_cover 6 _ (fun t _ => by
    obtain ⟨a, b, w1, b1, w2, b2, o⟩ := idx6 t
    show (dat6 (F := Ideal) V c).after 6 t = _
    rw [after6_6]
    exact stored_mlp (isRows_block a (V c main_v60)) (isRows_block b (V c main_v7)) (isRows_block w1 (V c main_v62))
      (isRows_block b1 (V c main_v69)) (isRows_block w2 (V c main_v66)) (isRows_block b2 (V c main_v70)) (isRows_block o _))
    cov6

theorem idx7 : ∀ t : Fin cfg7.N,
    IdxAt (win7_0.index t) t.val ∧ IdxAt (win7_1.index t) t.val ∧ IdxAt (win7_2.index t) 0 ∧ IdxAt (win7_3.index t) 0
    ∧ IdxAt (win7_4.index t) 0 ∧ IdxAt (win7_5.index t) 0 ∧ IdxAt (win7_6.index t) t.val :=
  (by decide +kernel : ∀ t : Fin grid7.N, _)

theorem cov7 (i : S100000x64.Idx) : ∃ t : Fin cfg7.N, (cfg7.win 6).flush t = true ∧ i ∈ ((cfg7.win 6).blk t).view.set := by
  have hi : (i 0).val < 100000 := (i 0).isLt
  have ht : (i 0).val / 5000 < 20 := by omega
  obtain ⟨-, -, -, -, -, -, o⟩ := idx7 ⟨_, ht⟩
  refine ⟨⟨_, ht⟩, flush7_6 _, ?_⟩
  exact (rowsAt_block (B := 5000) (M := 100000) (K := 64) (s := (i 0).val / 5000) o).mem_of_rows (View.emb_mem_set _) i
    (by omega) (by omega)

theorem out7 (c : Dev nD) :
    (dat7 (F := Ideal) V c).arrAt 6 cfg7.N
      = mlpArr (Hc := 128) rfl (V c main_v59) (V c main_v74) (V c main_v76) (V c main_v83) (V c main_v80) (V c main_v84) :=
  (dat7 (F := Ideal) V c).arrAt_eq_of_cover 6 _ (fun t _ => by
    obtain ⟨a, b, w1, b1, w2, b2, o⟩ := idx7 t
    show (dat7 (F := Ideal) V c).after 6 t = _
    rw [after7_6]
    exact stored_mlp (isRows_block a (V c main_v59)) (isRows_block b (V c main_v74)) (isRows_block w1 (V c main_v76))
      (isRows_block b1 (V c main_v83)) (isRows_block w2 (V c main_v80)) (isRows_block b2 (V c main_v84)) (isRows_block o _))
    cov7

theorem idx8 : ∀ t : Fin cfg8.N,
    IdxAt (win8_0.index t) 0 ∧ IdxAt (win8_1.index t) 0 ∧ IdxAt (win8_2.index t) 0 ∧ IdxAt (win8_3.index t) 0
    ∧ IdxAt (win8_4.index t) 0 ∧ IdxAt (win8_5.index t) 0 ∧ IdxAt (win8_6.index t) 0 :=
  (by decide +kernel : ∀ t : Fin grid8.N, _)

theorem cov8 (i : S1000x1.Idx) : ∃ t : Fin cfg8.N, (cfg8.win 6).flush t = true ∧ i ∈ ((cfg8.win 6).blk t).view.set := by
  have hi : (i 0).val < 1000 := (i 0).isLt
  obtain ⟨-, -, -, -, -, -, o⟩ := idx8 ⟨0, by decide⟩
  refine ⟨⟨0, by decide⟩, flush8_6 _, ?_⟩
  exact (rowsAt_block (B := 1000) (M := 1000) (K := 1) (s := 0) o).mem_of_rows (View.emb_mem_set _) i (by omega) (by omega)

theorem out8 (c : Dev nD) :
    (dat8 (F := Ideal) V c).arrAt 6 cfg8.N
      = mlpArr (Hc := 264) rfl (V c main_v97) (V c main_arg4) (V c main_arg17) (V c main_v98) (V c main_arg19) (V c main_v99) :=
  (dat8 (F := Ideal) V c).arrAt_eq_of_cover 6 _ (fun t _ => by
    obtain ⟨a, b, w1, b1, w2, b2, o⟩ := idx8 t
    show (dat8 (F := Ideal) V c).after 6 t = _
    rw [after8_6]
    unfold out8_6
    rw [View.canon_unit_zero hz]
    simp only [View.ld_unit_zero (S := S1000x64) hz, View.ld_unit_zero (S := S1000x200) hz, View.ld_unit_zero (S := S264x128) hz,
      View.ld_unit_zero (S := S1x128) hz, View.ld_unit_zero (S := S128x1) hz, View.ld_unit_zero (S := S1x1) hz]
    exact mlp_block Pay.k8_pay1_apply (isRows_block a (V c main_v97)) (isRows_block b (V c main_arg4))
      (isRows_block w1 (V c main_arg17)) (isRows_block b1 (V c main_v98)) (isRows_block w2 (V c main_arg19))
      (isRows_block b2 (V c main_v99)) (isRows_block o _)) cov8

end Cert.KernelIdeal.Reg

end
-- ==== Proof.KChainBase.lean ====
import proofs.«408410_j14482629722785_2_alg».proof.Proof.Gen.KernelIdeal.Frame
import proofs.«408410_j14482629722785_2_alg».proof.Proof.KKeep
import proofs.«408410_j14482629722785_2_alg».proof.Proof.KNet
import proofs.«408410_j14482629722785_2_alg».proof.Proof.KRegs
import Idealize.ShloMosaic.Lib.StableHlo.Run

noncomputable section

namespace Cert.KernelIdeal.Chain

open Cert.KernelIdeal Cert.KernelIdeal.Gen Idealize.ShloMosaic Idealize.ShloMosaic.TcCoe Idealize.ShloMosaic.StableHlo
open Cert.Dense Cert.KernelIdeal.Glue Cert.KernelIdeal.Keep

variable (m : (ℓ : Loc nD τ sig) → Buf (Elt Ideal) ℓ) (ρ : Dev nD → PrngReg)

theorem arg_at (j : Fin 23) (r : Ref sig .tc)
    (hr : ∀ k : Fin 22, (0 : Fin 23).val ≤ k.val → k.val < j.val → r ∉ segWrites k) (c : Dev nD) :
    Wn m ρ j c (Proc.devRef .tc r) = m ((c.tc : Thread nD τ).loc r) :=
  Keep.keep m ρ 0 j (Fin.zero_le j) r hr c

theorem w1_src (c : Dev nD) : W1 m ρ c (Proc.devRef .tc main_v1) = srcOf (m ((c.tc : Thread nD τ).loc main_arg1)) := by
  show StableHlo.after hostOps0 (W0 m ρ c) (Proc.devRef .tc main_v1) = _
  after_results
  rfl

theorem w1_dst (c : Dev nD) : W1 m ρ c (Proc.devRef .tc main_v3) = dstOf (m ((c.tc : Thread nD τ).loc main_arg1)) := by
  show StableHlo.after hostOps0 (W0 m ρ c) (Proc.devRef .tc main_v3) = _
  after_results
  rfl

def h0 (c : Dev nD) : FVec Ideal S100000x64 .f32 := linArr (m ((c.tc : Thread nD τ).loc main_arg0)) (m ((c.tc : Thread nD τ).loc main_arg5)) (row64 (m ((c.tc : Thread nD τ).loc main_arg6)))

theorem w2_h0 (c : Dev nD) : W2 m ρ c (Proc.devRef .tc main_v5) = h0 m c := by
  refine (W2_arr m ρ c 3).trans ((Reg.out0 (V1 m ρ) c).trans ?_)
  rw [show V1 m ρ c main_arg0 = _ from arg_at m ρ 1 main_arg0 (by decide) c,
    show V1 m ρ c main_arg5 = _ from arg_at m ρ 1 main_arg5 (by decide) c]
  show linArr _ _ (StableHlo.after hostOps0 (W0 m ρ c) (Proc.devRef .tc main_v4)) = _
  after_results
  rfl

def ea (c : Dev nD) : FVec Ideal S1600000x64 .f32 := linArr (m ((c.tc : Thread nD τ).loc main_arg2)) (m ((c.tc : Thread nD τ).loc main_arg7)) (row64 (m ((c.tc : Thread nD τ).loc main_arg8)))

theorem w4_ea (c : Dev nD) : W4 m ρ c (Proc.devRef .tc main_v7) = ea m c := by
  refine (W4_arr m ρ c 3).trans ((Reg.out1 (V3 m ρ) c).trans ?_)
  rw [show V3 m ρ c main_arg2 = _ from arg_at m ρ 3 main_arg2 (by decide) c,
    show V3 m ρ c main_arg7 = _ from arg_at m ρ 3 main_arg7 (by decide) c]
  show linArr _ _ (StableHlo.after hostOps1 (W2 m ρ c) (Proc.devRef .tc main_v6)) = _
  after_results
  rw [show W2 m ρ c _ = _ from arg_at m ρ 2 main_arg8 (by decide) c]
  rfl

theorem w4_h0 (c : Dev nD) : W4 m ρ c (Proc.devRef .tc main_v5) = h0 m c :=
  (Keep.keep m ρ 2 4 (by decide) main_v5 (by decide) c).trans (w2_h0 m ρ c)

theorem w4_src (c : Dev nD) : W4 m ρ c (Proc.devRef .tc main_v1) = srcOf (m ((c.tc : Thread nD τ).loc main_arg1)) :=
  (Keep.keep m ρ 1 4 (by decide) main_v1 (by decide) c).trans (w1_src m ρ c)

theorem w4_dst (c : Dev nD) : W4 m ρ c (Proc.devRef .tc main_v3) = dstOf (m ((c.tc : Thread nD τ).loc main_arg1)) :=
  (Keep.keep m ρ 1 4 (by decide) main_v3 (by decide) c).trans (w1_dst m ρ c)

end Cert.KernelIdeal.Chain

end
-- ==== Proof.LibTypedRef.lean ====
import Idealize.ShloMosaic.Lib.StableHlo

namespace Idealize.ShloMosaic.StableHlo.TRef

variable {sig : RefSig} {Val : EltTy → Type} {T : BufTy}

theorem ofBuf_toBuf (x : TRef sig T) (v : T.Contents Val) : x.ofBuf (x.toBuf v) = v := by
  obtain ⟨r, h, _, _⟩ := x
  subst h
  rfl

theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.KChainL0.lean ====
import proofs.«408410_j14482629722785_2_alg».proof.Proof.KChainBase
import proofs.«408410_j14482629722785_2_alg».proof.Proof.LibTypedRef

noncomputable section

namespace Cert.KernelIdeal.Chain

open Cert.KernelIdeal Cert.KernelIdeal.Gen Idealize.ShloMosaic Idealize.ShloMosaic.TcCoe Idealize.ShloMosaic.StableHlo
open Cert.Dense Cert.KernelIdeal.Glue Cert.KernelIdeal.Keep

variable (m : (ℓ : Loc nD τ sig) → Buf (Elt Ideal) ℓ) (ρ : Dev nD → PrngReg)

section Layer0

variable (c : Dev nD) (S D : IVec S1600000 32) (EA : FVec Ideal S1600000x64 .f32) (H : FVec Ideal S100000x64 .f32)
variable (hS : W4 m ρ c (Proc.devRef .tc main_v1) = S) (hD : W4 m ρ c (Proc.devRef .tc main_v3) = D)
  (hEA : W4 m ρ c (Proc.devRef .tc main_v7) = EA) (hH : W4 m ρ c (Proc.devRef .tc main_v5) = H)

include hS hH in
theorem l0_gathered : W5 m ρ c (Proc.devRef .tc main_v8) = takeRows H S := by
  show StableHlo.after hostOps2 (W4 m ρ c) (Proc.devRef .tc main_v8) = _
  after_results_simp
  rw [hS, hH]
  simp only [TRef.ofBuf_toBuf]
  have e1 : ∀ v : IVec S1600000 32, (TRef.of main_v1 : TRef sig ⟨S1600000, .i32⟩).ofBuf (Val := Elt Ideal) v = v := fun _ => rfl
  have e5 : ∀ v : FVec Ideal S100000x64 .f32, (TRef.of main_v5 : TRef sig ⟨S100000x64, .f32⟩).ofBuf (Val := Elt Ideal) v = v :=
    fun _ => rfl
  have e8 : ∀ v : FVec Ideal S1600000x64 .f32, (TRef.of main_v8 : TRef sig ⟨S1600000x64, .f32⟩).toBuf (Val := Elt Ideal) v = v :=
    fun _ => rfl
  simp only [e1, e5]
  refine (e8 _).trans ?_
  rfl

include hS hEA hH in
theorem l0_messages : W7 m ρ c (Proc.devRef .tc main_v19) = msgsAt EA (m ((c.tc : Thread nD τ).loc main_arg9)) (m ((c.tc : Thread nD τ).loc main_arg10)) (m ((c.tc : Thread nD τ).loc main_arg11)) (m ((c.tc : Thread nD τ).loc main_arg12)) ![0, 0, 0] ![0, 0] slices_S3x128x64_S1x128x64_0_0_0 slices_S3x64x64_S1x64x64_0_0_0 slices_S3x64_S1x64_0_0 (takeRows H S) := by
  refine (W7_arr m ρ c 6).trans ((Reg.out2 (V6 m ρ) c).trans ?_)
  rw [show V6 m ρ c main_v8 = takeRows H S from
      (Keep.keep m ρ (5 : Fin 23) (6 : Fin 23) (by decide) main_v8 (by decide) c).trans (l0_gathered m ρ c S H hS hH),
    show V6 m ρ c main_v7 = EA from (Keep.keep m ρ (4 : Fin 23) (6 : Fin 23) (by decide) main_v7 (by decide) c).trans hEA]
  show mlpArr (Hc := 128) rfl _ _ (StableHlo.after hostOps2_1 (W5 m ρ c) (Proc.devRef .tc main_v10)) (StableHlo.after hostOps2_1 (W5 m ρ c) (Proc.devRef .tc main_v17))
    (StableHlo.after hostOps2_1 (W5 m ρ c) (Proc.devRef .tc main_v14)) (StableHlo.after hostOps2_1 (W5 m ρ c) (Proc.devRef .tc main_v18)) = _
  after_results_simp
  rw [(show W4 m ρ c _ = _ from arg_at m ρ (4 : Fin 23) main_arg9 (by decide) c),
    (show W4 m ρ c _ = _ from arg_at m ρ (4 : Fin 23) main_arg10 (by decide) c),
    (show W4 m ρ c _ = _ from arg_at m ρ (4 : Fin 23) main_arg11 (by decide) c),
    (show W4 m ρ c _ = _ from arg_at m ρ (4 : Fin 23) main_arg12 (by decide) c)]
  rfl

include hS hD hEA hH in
theorem l0_out : W9 m ρ c (Proc.devRef .tc main_v33)
    = layerAt (fun h => takeRows h S) D EA (m ((c.tc : Thread nD τ).loc main_arg9)) (m ((c.tc : Thread nD τ).loc main_arg10)) (m ((c.tc : Thread nD τ).loc main_arg11)) (m ((c.tc : Thread nD τ).loc main_arg12))
        (m ((c.tc : Thread nD τ).loc main_arg13)) (m ((c.tc : Thread nD τ).loc main_arg14)) (m ((c.tc : Thread nD τ).loc main_arg15)) (m ((c.tc : Thread nD τ).loc main_arg16)) ![0, 0, 0] ![0, 0] slices_S3x128x64_S1x128x64_0_0_0 slices_S3x64x64_S1x64x64_0_0_0 slices_S3x64_S1x64_0_0 H := by
  refine (W9_arr m ρ c 6).trans ((Reg.out3 (V8 m ρ) c).trans ?_)
  rw [show V8 m ρ c main_v5 = H from (Keep.keep m ρ (4 : Fin 23) (8 : Fin 23) (by decide) main_v5 (by decide) c).trans hH]
  show mlpArr (Hc := 128) rfl _ (StableHlo.after hostOps3 (W7 m ρ c) (Proc.devRef .tc main_v22)) (StableHlo.after hostOps3 (W7 m ρ c) (Proc.devRef .tc main_v24)) (StableHlo.after hostOps3 (W7 m ρ c) (Proc.devRef .tc main_v31))
    (StableHlo.after hostOps3 (W7 m ρ c) (Proc.devRef .tc main_v28)) (StableHlo.after hostOps3 (W7 m ρ c) (Proc.devRef .tc main_v32)) = _
  after_results_simp
  rw [(show W7 m ρ c _ = _ from arg_at m ρ (7 : Fin 23) main_arg13 (by decide) c),
    (show W7 m ρ c _ = _ from arg_at m ρ (7 : Fin 23) main_arg14 (by decide) c),
    (show W7 m ρ c _ = _ from arg_at m ρ (7 : Fin 23) main_arg15 (by decide) c),
    (show W7 m ρ c _ = _ from arg_at m ρ (7 : Fin 23) main_arg16 (by decide) c),
    show W7 m ρ c (Proc.devRef .tc main_v3) = D from (Keep.keep m ρ (4 : Fin 23) (7 : Fin 23) (by decide) main_v3 (by decide) c).trans hD,
    l0_messages m ρ c S EA H hS hEA hH]
  rfl

end Layer0

end Cert.KernelIdeal.Chain

end
-- ==== Proof.KChainL1.lean ====
import proofs.«408410_j14482629722785_2_alg».proof.Proof.KChainBase
import proofs.«408410_j14482629722785_2_alg».proof.Proof.LibTypedRef

noncomputable section

namespace Cert.KernelIdeal.Chain

open Cert.KernelIdeal Cert.KernelIdeal.Gen Idealize.ShloMosaic Idealize.ShloMosaic.TcCoe Idealize.ShloMosaic.StableHlo
open Cert.Dense Cert.KernelIdeal.Glue Cert.KernelIdeal.Keep

variable (m : (ℓ : Loc nD τ sig) → Buf (Elt Ideal) ℓ) (ρ : Dev nD → PrngReg)

section Layer1

variable (c : Dev nD) (S D : IVec S1600000 32) (EA : FVec Ideal S1600000x64 .f32) (H : FVec Ideal S100000x64 .f32)
variable (hS : W9 m ρ c (Proc.devRef .tc main_v1) = S) (hD : W9 m ρ c (Proc.devRef .tc main_v3) = D)
  (hEA : W9 m ρ c (Proc.devRef .tc main_v7) = EA) (hH : W9 m ρ c (Proc.devRef .tc main_v33) = H)

include hS hH in
theorem l1_gathered : W10 m ρ c (Proc.devRef .tc main_v34) = takeRows H S := by
  show StableHlo.after hostOps4 (W9 m ρ c) (Proc.devRef .tc main_v34) = _
  after_results_simp
  rw [hS, hH]
  simp only [TRef.ofBuf_toBuf]
  have e1 : ∀ v : IVec S1600000 32, (TRef.of main_v1 : TRef sig ⟨S1600000, .i32⟩).ofBuf (Val := Elt Ideal) v = v := fun _ => rfl
  have e5 : ∀ v : FVec Ideal S100000x64 .f32, (TRef.of main_v33 : TRef sig ⟨S100000x64, .f32⟩).ofBuf (Val := Elt Ideal) v = v :=
    fun _ => rfl
  have e8 : ∀ v : FVec Ideal S1600000x64 .f32, (TRef.of main_v34 : TRef sig ⟨S1600000x64, .f32⟩).toBuf (Val := Elt Ideal) v = v :=
    fun _ => rfl
  simp only [e1, e5]
  refine (e8 _).trans ?_
  rfl

include hS hEA hH in
theorem l1_messages : W12 m ρ c (Proc.devRef .tc main_v45) = msgsAt EA (m ((c.tc : Thread nD τ).loc main_arg9)) (m ((c.tc : Thread nD τ).loc main_arg10)) (m ((c.tc : Thread nD τ).loc main_arg11)) (m ((c.tc : Thread nD τ).loc main_arg12)) ![1, 0, 0] ![1, 0] slices_S3x128x64_S1x128x64_1_0_0 slices_S3x64x64_S1x64x64_1_0_0 slices_S3x64_S1x64_1_0 (takeRows H S) := by
  refine (W12_arr m ρ c 6).trans ((Reg.out4 (V11 m ρ) c).trans ?_)
  rw [show V11 m ρ c main_v34 = takeRows H S from
      (Keep.keep m ρ (10 : Fin 23) (11 : Fin 23) (by decide) main_v34 (by decide) c).trans (l1_gathered m ρ c S H hS hH),
    show V11 m ρ c main_v7 = EA from (Keep.keep m ρ (9 : Fin 23) (11 : Fin 23) (by decide) main_v7 (by decide) c).trans hEA]
  show mlpArr (Hc := 128) rfl _ _ (StableHlo.after hostOps4_1 (W10 m ρ c) (Proc.devRef .tc main_v36)) (StableHlo.after hostOps4_1 (W10 m ρ c) (Proc.devRef .tc main_v43))
    (StableHlo.after hostOps4_1 (W10 m ρ c) (Proc.devRef .tc main_v40)) (StableHlo.after hostOps4_1 (W10 m ρ c) (Proc.devRef .tc main_v44)) = _
  after_results_simp
  rw [(show W9 m ρ c _ = _ from arg_at m ρ (9 : Fin 23) main_arg9 (by decide) c),
    (show W9 m ρ c _ = _ from arg_at m ρ (9 : Fin 23) main_arg10 (by decide) c),
    (show W9 m ρ c _ = _ from arg_at m ρ (9 : Fin 23) main_arg11 (by decide) c),
    (show W9 m ρ c _ = _ from arg_at m ρ (9 : Fin 23) main_arg12 (by decide) c)]
  rfl

include hS hD hEA hH in
theorem l1_out : W14 m ρ c (Proc.devRef .tc main_v59)
    = layerAt (fun h => takeRows h S) D EA (m ((c.tc : Thread nD τ).loc main_arg9)) (m ((c.tc : Thread nD τ).loc main_arg10)) (m ((c.tc : Thread nD τ).loc main_arg11)) (m ((c.tc : Thread nD τ).loc main_arg12))
        (m ((c.tc : Thread nD τ).loc main_arg13)) (m ((c.tc : Thread nD τ).loc main_arg14)) (m ((c.tc : Thread nD τ).loc main_arg15)) (m ((c.tc : Thread nD τ).loc main_arg16)) ![1, 0, 0] ![1, 0] slices_S3x128x64_S1x128x64_1_0_0 slices_S3x64x64_S1x64x64_1_0_0 slices_S3x64_S1x64_1_0 H := by
  refine (W14_arr m ρ c 6).trans ((Reg.out5 (V13 m ρ) c).trans ?_)
  rw [show V13 m ρ c main_v33 = H from (Keep.keep m ρ (9 : Fin 23) (13 : Fin 23) (by decide) main_v33 (by decide) c).trans hH]
  show mlpArr (Hc := 128) rfl _ (StableHlo.after hostOps5 (W12 m ρ c) (Proc.devRef .tc main_v48)) (StableHlo.after hostOps5 (W12 m ρ c) (Proc.devRef .tc main_v50)) (StableHlo.after hostOps5 (W12 m ρ c) (Proc.devRef .tc main_v57))
    (StableHlo.after hostOps5 (W12 m ρ c) (Proc.devRef .tc main_v54)) (StableHlo.after hostOps5 (W12 m ρ c) (Proc.devRef .tc main_v58)) = _
  after_results_simp
  rw [(show W12 m ρ c _ = _ from arg_at m ρ (12 : Fin 23) main_arg13 (by decide) c),
    (show W12 m ρ c _ = _ from arg_at m ρ (12 : Fin 23) main_arg14 (by decide) c),
    (show W12 m ρ c _ = _ from arg_at m ρ (12 : Fin 23) main_arg15 (by decide) c),
    (show W12 m ρ c _ = _ from arg_at m ρ (12 : Fin 23) main_arg16 (by decide) c),
    show W12 m ρ c (Proc.devRef .tc main_v3) = D from (Keep.keep m ρ (9 : Fin 23) (12 : Fin 23) (by decide) main_v3 (by decide) c).trans hD,
    l1_messages m ρ c S EA H hS hEA hH]
  rfl

end Layer1

end Cert.KernelIdeal.Chain

end
-- ==== Proof.KChainL2.lean ====
import proofs.«408410_j14482629722785_2_alg».proof.Proof.KChainBase
import proofs.«408410_j14482629722785_2_alg».proof.Proof.LibTypedRef

noncomputable section

namespace Cert.KernelIdeal.Chain

open Cert.KernelIdeal Cert.KernelIdeal.Gen Idealize.ShloMosaic Idealize.ShloMosaic.TcCoe Idealize.ShloMosaic.StableHlo
open Cert.Dense Cert.KernelIdeal.Glue Cert.KernelIdeal.Keep

variable (m : (ℓ : Loc nD τ sig) → Buf (Elt Ideal) ℓ) (ρ : Dev nD → PrngReg)

section Layer2

variable (c : Dev nD) (S D : IVec S1600000 32) (EA : FVec Ideal S1600000x64 .f32) (H : FVec Ideal S100000x64 .f32)
variable (hS : W14 m ρ c (Proc.devRef .tc main_v1) = S) (hD : W14 m ρ c (Proc.devRef .tc main_v3) = D)
  (hEA : W14 m ρ c (Proc.devRef .tc main_v7) = EA) (hH : W14 m ρ c (Proc.devRef .tc main_v59) = H)

include hS hH in
theorem l2_gathered : W15 m ρ c (Proc.devRef .tc main_v60) = takeRows H S := by
  show StableHlo.after hostOps6 (W14 m ρ c) (Proc.devRef .tc main_v60) = _
  after_results_simp
  rw [hS, hH]
  simp only [TRef.ofBuf_toBuf]
  have e1 : ∀ v : IVec S1600000 32, (TRef.of main_v1 : TRef sig ⟨S1600000, .i32⟩).ofBuf (Val := Elt Ideal) v = v := fun _ => rfl
  have e5 : ∀ v : FVec Ideal S100000x64 .f32, (TRef.of main_v59 : TRef sig ⟨S100000x64, .f32⟩).ofBuf (Val := Elt Ideal) v = v :=
    fun _ => rfl
  have e8 : ∀ v : FVec Ideal S1600000x64 .f32, (TRef.of main_v60 : TRef sig ⟨S1600000x64, .f32⟩).toBuf (Val := Elt Ideal) v = v :=
    fun _ => rfl
  simp only [e1, e5]
  refine (e8 _).trans ?_
  rfl

include hS hEA hH in
theorem l2_messages : W17 m ρ c (Proc.devRef .tc main_v71) = msgsAt EA (m ((c.tc : Thread nD τ).loc main_arg9)) (m ((c.tc : Thread nD τ).loc main_arg10)) (m ((c.tc : Thread nD τ).loc main_arg11)) (m ((c.tc : Thread nD τ).loc main_arg12)) ![2, 0, 0] ![2, 0] slices_S3x128x64_S1x128x64_2_0_0 slices_S3x64x64_S1x64x64_2_0_0 slices_S3x64_S1x64_2_0 (takeRows H S) := by
  refine (W17_arr m ρ c 6).trans ((Reg.out6 (V16 m ρ) c).trans ?_)
  rw [show V16 m ρ c main_v60 = takeRows H S from
      (Keep.keep m ρ (15 : Fin 23) (16 : Fin 23) (by decide) main_v60 (by decide) c).trans (l2_gathered m ρ c S H hS hH),
    show V16 m ρ c main_v7 = EA from (Keep.keep m ρ (14 : Fin 23) (16 : Fin 23) (by decide) main_v7 (by decide) c).trans hEA]
  show mlpArr (Hc := 128) rfl _ _ (StableHlo.after hostOps6_1 (W15 m ρ c) (Proc.devRef .tc main_v62)) (StableHlo.after hostOps6_1 (W15 m ρ c) (Proc.devRef .tc main_v69))
    (StableHlo.after hostOps6_1 (W15 m ρ c) (Proc.devRef .tc main_v66)) (StableHlo.after hostOps6_1 (W15 m ρ c) (Proc.devRef .tc main_v70)) = _
  after_results_simp
  rw [(show W14 m ρ c _ = _ from arg_at m ρ (14 : Fin 23) main_arg9 (by decide) c),
    (show W14 m ρ c _ = _ from arg_at m ρ (14 : Fin 23) main_arg10 (by decide) c),
    (show W14 m ρ c _ = _ from arg_at m ρ (14 : Fin 23) main_arg11 (by decide) c),
    (show W14 m ρ c _ = _ from arg_at m ρ (14 : Fin 23) main_arg12 (by decide) c)]
  rfl

include hS hD hEA hH in
theorem l2_out : W19 m ρ c (Proc.devRef .tc main_v85)
    = layerAt (fun h => takeRows h S) D EA (m ((c.tc : Thread nD τ).loc main_arg9)) (m ((c.tc : Thread nD τ).loc main_arg10)) (m ((c.tc : Thread nD τ).loc main_arg11)) (m ((c.tc : Thread nD τ).loc main_arg12))
        (m ((c.tc : Thread nD τ).loc main_arg13)) (m ((c.tc : Thread nD τ).loc main_arg14)) (m ((c.tc : Thread nD τ).loc main_arg15)) (m ((c.tc : Thread nD τ).loc main_arg16)) ![2, 0, 0] ![2, 0] slices_S3x128x64_S1x128x64_2_0_0 slices_S3x64x64_S1x64x64_2_0_0 slices_S3x64_S1x64_2_0 H := by
  refine (W19_arr m ρ c 6).trans ((Reg.out7 (V18 m ρ) c).trans ?_)
  rw [show V18 m ρ c main_v59 = H from (Keep.keep m ρ (14 : Fin 23) (18 : Fin 23) (by decide) main_v59 (by decide) c).trans hH]
  show mlpArr (Hc := 128) rfl _ (StableHlo.after hostOps7 (W17 m ρ c) (Proc.devRef .tc main_v74)) (StableHlo.after hostOps7 (W17 m ρ c) (Proc.devRef .tc main_v76)) (StableHlo.after hostOps7 (W17 m ρ c) (Proc.devRef .tc main_v83))
    (StableHlo.after hostOps7 (W17 m ρ c) (Proc.devRef .tc main_v80)) (StableHlo.after hostOps7 (W17 m ρ c) (Proc.devRef .tc main_v84)) = _
  after_results_simp
  rw [(show W17 m ρ c _ = _ from arg_at m ρ (17 : Fin 23) main_arg13 (by decide) c),
    (show W17 m ρ c _ = _ from arg_at m ρ (17 : Fin 23) main_arg14 (by decide) c),
    (show W17 m ρ c _ = _ from arg_at m ρ (17 : Fin 23) main_arg15 (by decide) c),
    (show W17 m ρ c _ = _ from arg_at m ρ (17 : Fin 23) main_arg16 (by decide) c),
    show W17 m ρ c (Proc.devRef .tc main_v3) = D from (Keep.keep m ρ (14 : Fin 23) (17 : Fin 23) (by decide) main_v3 (by decide) c).trans hD,
    l2_messages m ρ c S EA H hS hEA hH]
  rfl

end Layer2

end Cert.KernelIdeal.Chain

end
-- ==== Proof.KChainTail.lean ====
import proofs.«408410_j14482629722785_2_alg».proof.Proof.KChainBase

noncomputable section

namespace Cert.KernelIdeal.Chain

open Cert.KernelIdeal Cert.KernelIdeal.Gen Idealize.ShloMosaic Idealize.ShloMosaic.TcCoe Idealize.ShloMosaic.StableHlo
open Cert.Dense Cert.KernelIdeal.Glue Cert.KernelIdeal.Keep

variable (m : (ℓ : Loc nD τ sig) → Buf (Elt Ideal) ℓ) (ρ : Dev nD → PrngReg)

def tailOf (c : Dev nD) (h3 : FVec Ideal S100000x64 .f32) : FVec Ideal S1000 .f32 :=
  squash (mlpArr (Hc := 264) rfl (poolRows (m ((c.tc : Thread nD τ).loc main_arg3)) h3) (m ((c.tc : Thread nD τ).loc main_arg4)) (m ((c.tc : Thread nD τ).loc main_arg17))
    (row128 (m ((c.tc : Thread nD τ).loc main_arg18))) (m ((c.tc : Thread nD τ).loc main_arg19)) (row1 (m ((c.tc : Thread nD τ).loc main_arg20))))

theorem w21_readout (c : Dev nD) (h3 : FVec Ideal S100000x64 .f32) (hh : W19 m ρ c (Proc.devRef .tc main_v85) = h3) :
    W21 m ρ c (Proc.devRef .tc main_v100)
      = mlpArr (Hc := 264) rfl (poolRows (m ((c.tc : Thread nD τ).loc main_arg3)) h3) (m ((c.tc : Thread nD τ).loc main_arg4)) (m ((c.tc : Thread nD τ).loc main_arg17))
          (row128 (m ((c.tc : Thread nD τ).loc main_arg18))) (m ((c.tc : Thread nD τ).loc main_arg19)) (row1 (m ((c.tc : Thread nD τ).loc main_arg20))) := by
  refine (W21_arr m ρ c 6).trans ((Reg.out8 (V20 m ρ) c).trans ?_)
  rw [show V20 m ρ c main_arg4 = _ from arg_at m ρ 20 main_arg4 (by decide) c,
    show V20 m ρ c main_arg17 = _ from arg_at m ρ 20 main_arg17 (by decide) c,
    show V20 m ρ c main_arg19 = _ from arg_at m ρ 20 main_arg19 (by decide) c]
  show mlpArr (Hc := 264) rfl (StableHlo.after hostOps8 (W19 m ρ c) (Proc.devRef .tc main_v97)) _ _
    (StableHlo.after hostOps8 (W19 m ρ c) (Proc.devRef .tc main_v98)) _ (StableHlo.after hostOps8 (W19 m ρ c) (Proc.devRef .tc main_v99)) = _
  after_results_simp
  rw [hh, show W19 m ρ c _ = _ from arg_at m ρ 19 main_arg3 (by decide) c,
    show W19 m ρ c _ = _ from arg_at m ρ 19 main_arg18 (by decide) c,
    show W19 m ρ c _ = _ from arg_at m ρ 19 main_arg20 (by decide) c]
  rfl

theorem w22_result (c : Dev nD) (h3 : FVec Ideal S100000x64 .f32) (hh : W19 m ρ c (Proc.devRef .tc main_v85) = h3) :
    W22 m ρ c (Proc.devRef .tc main_v107) = tailOf m c h3 := by
  show StableHlo.after hostOps9 (W21 m ρ c) (Proc.devRef .tc main_v107) = _
  after_results
  rw [w21_readout m ρ c h3 hh]
  rfl

end Cert.KernelIdeal.Chain

end
-- ==== Proof.KPre.lean ====
import proofs.«408410_j14482629722785_2_alg».proof.Defs
import proofs.«408410_j14482629722785_2_alg».proof.Proof.Gen.Pre_finite_inputs
import proofs.«408410_j14482629722785_2_alg».proof.Proof.KGlue
import Idealize.ShloMosaic.Lib.ValueIdx
import Idealize.ShloMosaic.Lib.ReduceAll
import Idealize.ShloMosaic.Lib.StableHlo.Predicate

noncomputable section

namespace Cert.KernelIdeal.Glue

open Cert.KernelIdeal Cert.KernelIdeal.Gen Idealize.ShloMosaic Idealize.ShloMosaic.ValueIdx Idealize.ShloMosaic.TcCoe

def SrcInRange (s : IVec S1600000 32) : Prop :=
  ∀ e : Fin 1600000, 0 ≤ (s (ix1 e)).toInt ∧ (s (ix1 e)).toInt < 100000

theorem srcInRange_of_pre (m : (ℓ : Loc nD τ sig) → Buf (Elt Ideal) ℓ) (hpre : Cert.Pre_KernelIdeal m) (c : Dev nD) :
    SrcInRange (srcOf (m ((c.tc : Thread nD τ).loc main_arg1))) := by
  intro e

  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  have h2 := (IntOp.andi_eq_one.1 h).2

  haveI : Subsingleton (⟨0, ![]⟩ : Shape).Idx := ⟨fun _ _ => funext fun d => d.elim0⟩
  have h3 := Host.reduce_andi_all _ _ _ _ _ h2 (ix1 e)
  obtain ⟨h0, h1⟩ := IntOp.andi_eq_one.1 h3

  have h0' : IntOp.cmpi .sge (srcOf (m ((c.tc : Thread nD τ).loc main_arg1)) (ix1 e)) 0#32 = 1#1 := h0
  have h1' : IntOp.cmpi .slt (srcOf (m ((c.tc : Thread nD τ).loc main_arg1)) (ix1 e)) 100000#32 = 1#1 := h1
  rw [IntOp.cmpi_sge] at h0'
  rw [IntOp.cmpi_slt] at h1'
  have z0 : (0#32 : BitVec 32).toInt = 0 := by decide
  have z1 : (100000#32 : BitVec 32).toInt = 100000 := by decide
  rw [z0] at h0'
  rw [z1] at h1'
  exact ⟨h0', h1'⟩

theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_of_all_one f l (fun n hn => h n (List.mem_cons_of_mem _ hn))

theorem word_inRange (w : BitVec 32) (h0 : 0 ≤ w.toInt) (h1 : w.toInt < 100000) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have z0 : (0#32 : BitVec 32).toInt = 0 := by decide
  have z1 : (99999#32 : BitVec 32).toInt = 99999 := by decide
  have hneg : ¬ IntOp.cmpi .slt w 0#32 = 1#1 := by rw [IntOp.cmpi_slt, z0]; omega
  have hsel : Scalar.select (IntOp.cmpi .slt w 0#32) (IntOp.addi w 100000#32) w = w := by
    rw [eq_zero_of_ne_one hneg, select_zero]
  rw [hsel, IntOp.andi_eq_one, IntOp.cmpi_sge, IntOp.cmpi_sle, z0, z1]
  exact ⟨h0, by omega⟩

theorem inRange_eq_one (s : IVec S1600000 32) (hs : SrcInRange s) (j : S1600000.Idx) : inRange s j = 1#1 := by
  unfold inRange
  rw [Host.reduce_eq_foldl]
  refine foldl_andi_of_all_one _ _ (fun i _ => ?_)

  obtain ⟨k, hk⟩ : ∃ k : S1600000.Idx, wrapIdx s i
      = Scalar.select (IntOp.cmpi .slt (s k) 0#32) (IntOp.addi (s k) 100000#32) (s k) := ⟨_, rfl⟩
  have hr : 0 ≤ (s k).toInt ∧ (s k).toInt < 100000 := by rw [eq_ix1 k]; exact hs (k 0)
  show IntOp.andi (IntOp.cmpi .sge (wrapIdx s i) 0#32) (IntOp.cmpi .sle (wrapIdx s i) 99999#32) = 1#1
  rw [hk]
  exact word_inRange (s k) hr.1 hr.2

theorem takeRows_eq_gatherRows {F : FTy → Type} [FloatOps F] (h : FVec F S100000x64 .f32) (s : IVec S1600000 32)
    (hs : SrcInRange s) : takeRows h s = gatherRows h s := by
  funext i
  unfold takeRows
  rw [select_apply]
  have hb : broadcastInDim S1600000x64 ![0] bcast_S1600000_S1600000x64_0 (inRange s) i = 1#1 := by
    unfold broadcastInDim
    exact inRange_eq_one s hs _
  rw [hb, select_one]

end Cert.KernelIdeal.Glue

end
-- ==== Proof.KChain.lean ====
import proofs.«408410_j14482629722785_2_alg».proof.Proof.KChainL0
import proofs.«408410_j14482629722785_2_alg».proof.Proof.KChainL1
import proofs.«408410_j14482629722785_2_alg».proof.Proof.KChainL2
import proofs.«408410_j14482629722785_2_alg».proof.Proof.KChainTail
import proofs.«408410_j14482629722785_2_alg».proof.Proof.KPre

noncomputable section

namespace Cert.KernelIdeal.Chain

open Cert.KernelIdeal Cert.KernelIdeal.Gen Idealize.ShloMosaic Idealize.ShloMosaic.TcCoe Idealize.ShloMosaic.StableHlo
open Cert.Dense Cert.KernelIdeal.Glue Cert.KernelIdeal.Keep

variable (m : (ℓ : Loc nD τ sig) → Buf (Elt Ideal) ℓ) (ρ : Dev nD → PrngReg)

abbrev srcs (c : Dev nD) : IVec S1600000 32 := srcOf (m ((c.tc : Thread nD τ).loc main_arg1))
abbrev dsts (c : Dev nD) : IVec S1600000 32 := dstOf (m ((c.tc : Thread nD τ).loc main_arg1))

/-- One layer of the network on core `c`'s argument buffers, from node features `h`. -/
def hNext (c : Dev nD) (o3 : Fin 3 → ℕ) (o2 : Fin 2 → ℕ) (s128 : S3x128x64.Slices o3 S1x128x64)
    (s64 : S3x64x64.Slices o3 S1x64x64) (sv : S3x64.Slices o2 S1x64) (h : FVec Ideal S100000x64 .f32) : FVec Ideal S100000x64 .f32 :=
  layerAt (fun h => takeRows h (srcs m c)) (dsts m c) (ea m c) (m ((c.tc : Thread nD τ).loc main_arg9)) (m ((c.tc : Thread nD τ).loc main_arg10)) (m ((c.tc : Thread nD τ).loc main_arg11)) (m ((c.tc : Thread nD τ).loc main_arg12))
    (m ((c.tc : Thread nD τ).loc main_arg13)) (m ((c.tc : Thread nD τ).loc main_arg14)) (m ((c.tc : Thread nD τ).loc main_arg15)) (m ((c.tc : Thread nD τ).loc main_arg16)) o3 o2 s128 s64 sv h

def h1 (c : Dev nD) : FVec Ideal S100000x64 .f32 := hNext m c ![0, 0, 0] ![0, 0] slices_S3x128x64_S1x128x64_0_0_0 slices_S3x64x64_S1x64x64_0_0_0 slices_S3x64_S1x64_0_0 (h0 m c)
def h2 (c : Dev nD) : FVec Ideal S100000x64 .f32 := hNext m c ![1, 0, 0] ![1, 0] slices_S3x128x64_S1x128x64_1_0_0 slices_S3x64x64_S1x64x64_1_0_0 slices_S3x64_S1x64_1_0 (h1 m c)
def h3 (c : Dev nD) : FVec Ideal S100000x64 .f32 := hNext m c ![2, 0, 0] ![2, 0] slices_S3x128x64_S1x128x64_2_0_0 slices_S3x64x64_S1x64x64_2_0_0 slices_S3x64_S1x64_2_0 (h2 m c)

theorem w9_h1 (c : Dev nD) : W9 m ρ c (Proc.devRef .tc main_v33) = h1 m c :=
  l0_out m ρ c (srcs m c) (dsts m c) (ea m c) (h0 m c) (w4_src m ρ c) (w4_dst m ρ c) (w4_ea m ρ c) (w4_h0 m ρ c)

theorem w14_h2 (c : Dev nD) : W14 m ρ c (Proc.devRef .tc main_v59) = h2 m c :=
  l1_out m ρ c (srcs m c) (dsts m c) (ea m c) (h1 m c) ((Keep.keep m ρ (4 : Fin 23) (9 : Fin 23) (by decide) main_v1 (by decide) c).trans (w4_src m ρ c))
    ((Keep.keep m ρ (4 : Fin 23) (9 : Fin 23) (by decide) main_v3 (by decide) c).trans (w4_dst m ρ c))
    ((Keep.keep m ρ (4 : Fin 23) (9 : Fin 23) (by decide) main_v7 (by decide) c).trans (w4_ea m ρ c)) (w9_h1 m ρ c)

theorem w19_h3 (c : Dev nD) : W19 m ρ c (Proc.devRef .tc main_v85) = h3 m c :=
  l2_out m ρ c (srcs m c) (dsts m c) (ea m c) (h2 m c) ((Keep.keep m ρ (4 : Fin 23) (14 : Fin 23) (by decide) main_v1 (by decide) c).trans (w4_src m ρ c))
    ((Keep.keep m ρ (4 : Fin 23) (14 : Fin 23) (by decide) main_v3 (by decide) c).trans (w4_dst m ρ c))
    ((Keep.keep m ρ (4 : Fin 23) (14 : Fin 23) (by decide) main_v7 (by decide) c).trans (w4_ea m ρ c)) (w14_h2 m ρ c)

/-- The network, with gather `g`, of core `c`'s argument buffers. -/
def netOf (g : FVec Ideal S100000x64 .f32 → FVec Ideal S1600000x64 .f32) (c : Dev nD) : FVec Ideal S1000 .f32 :=
  netWith g (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))

theorem result_fill (c : Dev nD) : W22 m ρ c (Proc.devRef .tc main_v107) = netOf m (fun h => takeRows h (srcs m c)) c :=
  (w22_result m ρ c (h3 m c) (w19_h3 m ρ c)).trans rfl

theorem result_plain (c : Dev nD) (hs : SrcInRange (srcs m c)) :
    W22 m ρ c (Proc.devRef .tc main_v107) = netOf m (fun h => gatherRows h (srcs m c)) c := by
  rw [result_fill m ρ c]
  have e : (fun h : FVec Ideal S100000x64 .f32 => takeRows h (srcs m c)) = fun h => gatherRows h (srcs m c) :=
    funext fun h => takeRows_eq_gatherRows h (srcs m c) hs
  rw [e]

end Cert.KernelIdeal.Chain

end
-- ==== Proof.RefOps.lean ====
import proofs.«408410_j14482629722785_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsProj : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    binary main_arg0 main_arg5 main_v4 (fun l r => Host.dotGeneral dot_S100000x32_S32x64_S100000x64_1_0_0_1_n_n none l r),
    unary main_arg6 main_v5 (broadcastInDim S1x64 ![1] bcast_S64_S1x64_1),
    unary main_v5 main_v6 (broadcastInDim S100000x64 ![0, 1] bcast_S1x64_S100000x64_0_1),
    binary main_v4 main_v6 main_v7 addf,
    binary main_arg2 main_arg7 main_v8 (fun l r => Host.dotGeneral dot_S1600000x16_S16x64_S1600000x64_1_0_0_1_n_n none l r),
    unary main_arg8 main_v9 (broadcastInDim S1x64 ![1] bcast_S64_S1x64_1),
    unary main_v9 main_v10 (broadcastInDim S1600000x64 ![0, 1] bcast_S1x64_S1600000x64_0_1),
    binary main_v8 main_v10 main_v11 addf ]

abbrev opsLayer0 : List (HloOp τ sig (Elt F)) :=
  [ nullary main_c (constantI S_ 32 0#32),
    unary main_c main_v12 (broadcastInDim S1600000 ![] bcast_S_S1600000),
    binary main_v1 main_v12 main_v13 (cmpi .slt),
    nullary main_c_0 (constantI S_ 32 100000#32),
    unary main_c_0 main_v14 (broadcastInDim S1600000 ![] bcast_S_S1600000),
    binary main_v1 main_v14 main_v15 addi,
    ternary main_v13 main_v15 main_v1 main_v16 select,
    unary main_v16 main_v17 (broadcastInDim S1600000x1 ![0] bcast_S1600000_S1600000x1_0),
    binary main_v7 main_v17 main_v18 (fun x i => Host.gather gather_S100000x64_S1600000x1_S1600000x64_1_0_n_n_0_1_164 x i),
    binary main_v18 main_v11 main_v19 (fun a b => concatenate S1600000x128 1 [⟨S1600000x64, a⟩, ⟨S1600000x64, b⟩] concatenates_S1600000x64_S1600000x64_S1600000x128_d1),
    unary main_arg9 main_v20 (extractStridedSlice S1x128x64 ![0, 0, 0] · slices_S3x128x64_S1x128x64_0_0_0),
    reshape main_v20 main_v21 rfl shapeCasts_S1x128x64_S128x64,
    binary main_v19 main_v21 main_v22 (fun l r => Host.dotGeneral dot_S1600000x128_S128x64_S1600000x64_1_0_0_1_n_n none l r),
    unary main_arg10 main_v23 (extractStridedSlice S1x64 ![0, 0] · slices_S3x64_S1x64_0_0),
    reshape main_v23 main_v24 rfl shapeCasts_S1x64_S64,
    unary main_v24 main_v25 (broadcastInDim S1x64 ![1] bcast_S64_S1x64_1),
    unary main_v25 main_v26 (broadcastInDim S1600000x64 ![0, 1] bcast_S1x64_S1600000x64_0_1),
    binary main_v22 main_v26 main_v27 addf,
    TRef.nullary (TRef.of (T := ⟨S_, .f32⟩) main_call0_cst) (constant S_ .f32 0x00000000#32),
    TRef.unary (TRef.of (T := ⟨S_, .f32⟩) main_call0_cst) (TRef.of (T := ⟨S1600000x64, .f32⟩) main_call0_v0) (broadcastInDim S1600000x64 ![] bcast_S_S1600000x64),
    TRef.binary (TRef.of (T := ⟨S1600000x64, .f32⟩) main_v27) (TRef.of (T := ⟨S1600000x64, .f32⟩) main_call0_v0) (TRef.of (T := ⟨S1600000x64, .f32⟩) main_v28) maximumf,
    unary main_arg11 main_v29 (extractStridedSlice S1x64x64 ![0, 0, 0] · slices_S3x64x64_S1x64x64_0_0_0),
    reshape main_v29 main_v30 rfl shapeCasts_S1x64x64_S64x64,
    binary main_v28 main_v30 main_v31 (fun l r => Host.dotGeneral dot_S1600000x64_S64x64_S1600000x64_1_0_0_1_n_n none l r),
    unary main_arg12 main_v32 (extractStridedSlice S1x64 ![0, 0] · slices_S3x64_S1x64_0_0),
    reshape main_v32 main_v33 rfl shapeCasts_S1x64_S64,
    unary main_v33 main_v34 (broadcastInDim S1x64 ![1] bcast_S64_S1x64_1),
    unary main_v34 main_v35 (broadcastInDim S1600000x64 ![0, 1] bcast_S1x64_S1600000x64_0_1),
    binary main_v31 main_v35 main_v36 addf,
    nullary main_cst (constant S_ .f32 0x00000000#32),
    unary main_cst main_v37 (broadcastInDim S100000x64 ![] bcast_S_S100000x64),
    unary main_v3 main_v38 (broadcastInDim S1600000x1 ![0] bcast_S1600000_S1600000x1_0),
    ternary main_v37 main_v38 main_v36 main_v39 (fun x i u => Host.scatterAdd scatter_S100000x64_S1600000x1_S1600000x64_1_0_0_1 x i u),
    binary main_v7 main_v39 main_v40 (fun a b => concatenate S100000x128 1 [⟨S100000x64, a⟩, ⟨S100000x64, b⟩] concatenates_S100000x64_S100000x64_S100000x128_d1),
    unary main_arg13 main_v41 (extractStridedSlice S1x128x64 ![0, 0, 0] · slices_S3x128x64_S1x128x64_0_0_0),
    reshape main_v41 main_v42 rfl shapeCasts_S1x128x64_S128x64,
    binary main_v40 main_v42 main_v43 (fun l r => Host.dotGeneral dot_S100000x128_S128x64_S100000x64_1_0_0_1_n_n none l r),
    unary main_arg14 main_v44 (extractStridedSlice S1x64 ![0, 0] · slices_S3x64_S1x64_0_0),
    reshape main_v44 main_v45 rfl shapeCasts_S1x64_S64,
    unary main_v45 main_v46 (broadcastInDim S1x64 ![1] bcast_S64_S1x64_1),
    unary main_v46 main_v47 (broadcastInDim S100000x64 ![0, 1] bcast_S1x64_S100000x64_0_1),
    binary main_v43 main_v47 main_v48 addf,
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    unary main_arg15 main_v50 (extractStridedSlice S1x64x64 ![0, 0, 0] · slices_S3x64x64_S1x64x64_0_0_0),
    reshape main_v50 main_v51 rfl shapeCasts_S1x64x64_S64x64,
    binary main_v49 main_v51 main_v52 (fun l r => Host.dotGeneral dot_S100000x64_S64x64_S100000x64_1_0_0_1_n_n none l r),
    unary main_arg16 main_v53 (extractStridedSlice S1x64 ![0, 0] · slices_S3x64_S1x64_0_0),
    reshape main_v53 main_v54 rfl shapeCasts_S1x64_S64,
    unary main_v54 main_v55 (broadcastInDim S1x64 ![1] bcast_S64_S1x64_1),
    unary main_v55 main_v56 (broadcastInDim S100000x64 ![0, 1] bcast_S1x64_S100000x64_0_1),
    binary main_v52 main_v56 main_v57 addf ]

abbrev opsLayer1 : List (HloOp τ sig (Elt F)) :=
  [ nullary main_c_1 (constantI S_ 32 0#32),
    unary main_c_1 main_v58 (broadcastInDim S1600000 ![] bcast_S_S1600000),
    binary main_v1 main_v58 main_v59 (cmpi .slt),
    nullary main_c_2 (constantI S_ 32 100000#32),
    unary main_c_2 main_v60 (broadcastInDim S1600000 ![] bcast_S_S1600000),
    binary main_v1 main_v60 main_v61 addi,
    ternary main_v59 main_v61 main_v1 main_v62 select,
    unary main_v62 main_v63 (broadcastInDim S1600000x1 ![0] bcast_S1600000_S1600000x1_0),
    binary main_v57 main_v63 main_v64 (fun x i => Host.gather gather_S100000x64_S1600000x1_S1600000x64_1_0_n_n_0_1_164 x i),
    binary main_v64 main_v11 main_v65 (fun a b => concatenate S1600000x128 1 [⟨S1600000x64, a⟩, ⟨S1600000x64, b⟩] concatenates_S1600000x64_S1600000x64_S1600000x128_d1),
    unary main_arg9 main_v66 (extractStridedSlice S1x128x64 ![1, 0, 0] · slices_S3x128x64_S1x128x64_1_0_0),
    reshape main_v66 main_v67 rfl shapeCasts_S1x128x64_S128x64,
    binary main_v65 main_v67 main_v68 (fun l r => Host.dotGeneral dot_S1600000x128_S128x64_S1600000x64_1_0_0_1_n_n none l r),
    unary main_arg10 main_v69 (extractStridedSlice S1x64 ![1, 0] · slices_S3x64_S1x64_1_0),
    reshape main_v69 main_v70 rfl shapeCasts_S1x64_S64,
    unary main_v70 main_v71 (broadcastInDim S1x64 ![1] bcast_S64_S1x64_1),
    unary main_v71 main_v72 (broadcastInDim S1600000x64 ![0, 1] bcast_S1x64_S1600000x64_0_1),
    binary main_v68 main_v72 main_v73 addf,
    TRef.nullary (TRef.of (T := ⟨S_, .f32⟩) main_call2_cst) (constant S_ .f32 0x00000000#32),
    TRef.unary (TRef.of (T := ⟨S_, .f32⟩) main_call2_cst) (TRef.of (T := ⟨S1600000x64, .f32⟩) main_call2_v0) (broadcastInDim S1600000x64 ![] bcast_S_S1600000x64),
    TRef.binary (TRef.of (T := ⟨S1600000x64, .f32⟩) main_v73) (TRef.of (T := ⟨S1600000x64, .f32⟩) main_call2_v0) (TRef.of (T := ⟨S1600000x64, .f32⟩) main_v74) maximumf,
    unary main_arg11 main_v75 (extractStridedSlice S1x64x64 ![1, 0, 0] · slices_S3x64x64_S1x64x64_1_0_0),
    reshape main_v75 main_v76 rfl shapeCasts_S1x64x64_S64x64,
    binary main_v74 main_v76 main_v77 (fun l r => Host.dotGeneral dot_S1600000x64_S64x64_S1600000x64_1_0_0_1_n_n none l r),
    unary main_arg12 main_v78 (extractStridedSlice S1x64 ![1, 0] · slices_S3x64_S1x64_1_0),
    reshape main_v78 main_v79 rfl shapeCasts_S1x64_S64,
    unary main_v79 main_v80 (broadcastInDim S1x64 ![1] bcast_S64_S1x64_1),
    unary main_v80 main_v81 (broadcastInDim S1600000x64 ![0, 1] bcast_S1x64_S1600000x64_0_1),
    binary main_v77 main_v81 main_v82 addf,
    nullary main_cst_3 (constant S_ .f32 0x00000000#32),
    unary main_cst_3 main_v83 (broadcastInDim S100000x64 ![] bcast_S_S100000x64),
    unary main_v3 main_v84 (broadcastInDim S1600000x1 ![0] bcast_S1600000_S1600000x1_0),
    ternary main_v83 main_v84 main_v82 main_v85 (fun x i u => Host.scatterAdd scatter_S100000x64_S1600000x1_S1600000x64_1_0_0_1 x i u),
    binary main_v57 main_v85 main_v86 (fun a b => concatenate S100000x128 1 [⟨S100000x64, a⟩, ⟨S100000x64, b⟩] concatenates_S100000x64_S100000x64_S100000x128_d1),
    unary main_arg13 main_v87 (extractStridedSlice S1x128x64 ![1, 0, 0] · slices_S3x128x64_S1x128x64_1_0_0),
    reshape main_v87 main_v88 rfl shapeCasts_S1x128x64_S128x64,
    binary main_v86 main_v88 main_v89 (fun l r => Host.dotGeneral dot_S100000x128_S128x64_S100000x64_1_0_0_1_n_n none l r),
    unary main_arg14 main_v90 (extractStridedSlice S1x64 ![1, 0] · slices_S3x64_S1x64_1_0),
    reshape main_v90 main_v91 rfl shapeCasts_S1x64_S64,
    unary main_v91 main_v92 (broadcastInDim S1x64 ![1] bcast_S64_S1x64_1),
    unary main_v92 main_v93 (broadcastInDim S100000x64 ![0, 1] bcast_S1x64_S100000x64_0_1),
    binary main_v89 main_v93 main_v94 addf,
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v94) (TRef.of (T := ⟨S100000x64, .f32⟩) main_call3_v0) (TRef.of (T := ⟨S100000x64, .f32⟩) main_v95) maximumf,
    unary main_arg15 main_v96 (extractStridedSlice S1x64x64 ![1, 0, 0] · slices_S3x64x64_S1x64x64_1_0_0),
    reshape main_v96 main_v97 rfl shapeCasts_S1x64x64_S64x64,
    binary main_v95 main_v97 main_v98 (fun l r => Host.dotGeneral dot_S100000x64_S64x64_S100000x64_1_0_0_1_n_n none l r),
    unary main_arg16 main_v99 (extractStridedSlice S1x64 ![1, 0] · slices_S3x64_S1x64_1_0),
    reshape main_v99 main_v100 rfl shapeCasts_S1x64_S64,
    unary main_v100 main_v101 (broadcastInDim S1x64 ![1] bcast_S64_S1x64_1),
    unary main_v101 main_v102 (broadcastInDim S100000x64 ![0, 1] bcast_S1x64_S100000x64_0_1),
    binary main_v98 main_v102 main_v103 addf ]

abbrev opsLayer2 : List (HloOp τ sig (Elt F)) :=
  [ nullary main_c_4 (constantI S_ 32 0#32),
    unary main_c_4 main_v104 (broadcastInDim S1600000 ![] bcast_S_S1600000),
    binary main_v1 main_v104 main_v105 (cmpi .slt),
    nullary main_c_5 (constantI S_ 32 100000#32),
    unary main_c_5 main_v106 (broadcastInDim S1600000 ![] bcast_S_S1600000),
    binary main_v1 main_v106 main_v107 addi,
    ternary main_v105 main_v107 main_v1 main_v108 select,
    unary main_v108 main_v109 (broadcastInDim S1600000x1 ![0] bcast_S1600000_S1600000x1_0),
    binary main_v103 main_v109 main_v110 (fun x i => Host.gather gather_S100000x64_S1600000x1_S1600000x64_1_0_n_n_0_1_164 x i),
    binary main_v110 main_v11 main_v111 (fun a b => concatenate S1600000x128 1 [⟨S1600000x64, a⟩, ⟨S1600000x64, b⟩] concatenates_S1600000x64_S1600000x64_S1600000x128_d1),
    unary main_arg9 main_v112 (extractStridedSlice S1x128x64 ![2, 0, 0] · slices_S3x128x64_S1x128x64_2_0_0),
    reshape main_v112 main_v113 rfl shapeCasts_S1x128x64_S128x64,
    binary main_v111 main_v113 main_v114 (fun l r => Host.dotGeneral dot_S1600000x128_S128x64_S1600000x64_1_0_0_1_n_n none l r),
    unary main_arg10 main_v115 (extractStridedSlice S1x64 ![2, 0] · slices_S3x64_S1x64_2_0),
    reshape main_v115 main_v116 rfl shapeCasts_S1x64_S64,
    unary main_v116 main_v117 (broadcastInDim S1x64 ![1] bcast_S64_S1x64_1),
    unary main_v117 main_v118 (broadcastInDim S1600000x64 ![0, 1] bcast_S1x64_S1600000x64_0_1),
    binary main_v114 main_v118 main_v119 addf,
    TRef.nullary (TRef.of (T := ⟨S_, .f32⟩) main_call4_cst) (constant S_ .f32 0x00000000#32),
    TRef.unary (TRef.of (T := ⟨S_, .f32⟩) main_call4_cst) (TRef.of (T := ⟨S1600000x64, .f32⟩) main_call4_v0) (broadcastInDim S1600000x64 ![] bcast_S_S1600000x64),
    TRef.binary (TRef.of (T := ⟨S1600000x64, .f32⟩) main_v119) (TRef.of (T := ⟨S1600000x64, .f32⟩) main_call4_v0) (TRef.of (T := ⟨S1600000x64, .f32⟩) main_v120) maximumf,
    unary main_arg11 main_v121 (extractStridedSlice S1x64x64 ![2, 0, 0] · slices_S3x64x64_S1x64x64_2_0_0),
    reshape main_v121 main_v122 rfl shapeCasts_S1x64x64_S64x64,
    binary main_v120 main_v122 main_v123 (fun l r => Host.dotGeneral dot_S1600000x64_S64x64_S1600000x64_1_0_0_1_n_n none l r),
    unary main_arg12 main_v124 (extractStridedSlice S1x64 ![2, 0] · slices_S3x64_S1x64_2_0),
    reshape main_v124 main_v125 rfl shapeCasts_S1x64_S64,
    unary main_v125 main_v126 (broadcastInDim S1x64 ![1] bcast_S64_S1x64_1),
    unary main_v126 main_v127 (broadcastInDim S1600000x64 ![0, 1] bcast_S1x64_S1600000x64_0_1),
    binary main_v123 main_v127 main_v128 addf,
    nullary main_cst_6 (constant S_ .f32 0x00000000#32),
    unary main_cst_6 main_v129 (broadcastInDim S100000x64 ![] bcast_S_S100000x64),
    unary main_v3 main_v130 (broadcastInDim S1600000x1 ![0] bcast_S1600000_S1600000x1_0),
    ternary main_v129 main_v130 main_v128 main_v131 (fun x i u => Host.scatterAdd scatter_S100000x64_S1600000x1_S1600000x64_1_0_0_1 x i u),
    binary main_v103 main_v131 main_v132 (fun a b => concatenate S100000x128 1 [⟨S100000x64, a⟩, ⟨S100000x64, b⟩] concatenates_S100000x64_S100000x64_S100000x128_d1),
    unary main_arg13 main_v133 (extractStridedSlice S1x128x64 ![2, 0, 0] · slices_S3x128x64_S1x128x64_2_0_0),
    reshape main_v133 main_v134 rfl shapeCasts_S1x128x64_S128x64,
    binary main_v132 main_v134 main_v135 (fun l r => Host.dotGeneral dot_S100000x128_S128x64_S100000x64_1_0_0_1_n_n none l r),
    unary main_arg14 main_v136 (extractStridedSlice S1x64 ![2, 0] · slices_S3x64_S1x64_2_0),
    reshape main_v136 main_v137 rfl shapeCasts_S1x64_S64,
    unary main_v137 main_v138 (broadcastInDim S1x64 ![1] bcast_S64_S1x64_1),
    unary main_v138 main_v139 (broadcastInDim S100000x64 ![0, 1] bcast_S1x64_S100000x64_0_1),
    binary main_v135 main_v139 main_v140 addf,
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v140) (TRef.of (T := ⟨S100000x64, .f32⟩) main_call5_v0) (TRef.of (T := ⟨S100000x64, .f32⟩) main_v141) maximumf,
    unary main_arg15 main_v142 (extractStridedSlice S1x64x64 ![2, 0, 0] · slices_S3x64x64_S1x64x64_2_0_0),
    reshape main_v142 main_v143 rfl shapeCasts_S1x64x64_S64x64,
    binary main_v141 main_v143 main_v144 (fun l r => Host.dotGeneral dot_S100000x64_S64x64_S100000x64_1_0_0_1_n_n none l r),
    unary main_arg16 main_v145 (extractStridedSlice S1x64 ![2, 0] · slices_S3x64_S1x64_2_0),
    reshape main_v145 main_v146 rfl shapeCasts_S1x64_S64,
    unary main_v146 main_v147 (broadcastInDim S1x64 ![1] bcast_S64_S1x64_1),
    unary main_v147 main_v148 (broadcastInDim S100000x64 ![0, 1] bcast_S1x64_S100000x64_0_1),
    binary main_v144 main_v148 main_v149 addf ]

abbrev opsTail : List (HloOp τ sig (Elt F)) :=
  [ nullary main_cst_7 (constant S_ .f32 0x00000000#32),
    unary main_cst_7 main_v150 (broadcastInDim S1000x64 ![] bcast_S_S1000x64),
    unary main_arg3 main_v151 (broadcastInDim S100000x1 ![0] bcast_S100000_S100000x1_0),
    ternary main_v150 main_v151 main_v149 main_v152 (fun x i u => Host.scatterAdd scatter_S1000x64_S100000x1_S100000x64_1_0_0_1 x i u),
    nullary main_cst_8 (constant S_ .f32 0x3F800000#32),
    unary main_cst_8 main_v153 (broadcastInDim S100000 ![] bcast_S_S100000),
    nullary main_cst_9 (constant S_ .f32 0x00000000#32),
    unary main_cst_9 main_v154 (broadcastInDim S1000 ![] bcast_S_S1000),
    unary main_arg3 main_v155 (broadcastInDim S100000x1 ![0] bcast_S100000_S100000x1_0),
    ternary main_v154 main_v155 main_v153 main_v156 (fun x i u => Host.scatterAdd scatter_S1000_S100000x1_S100000_n_0_0_1 x i u),
    nullary main_cst_10 (constant S_ .f32 0x3F800000#32),
    unary main_cst_10 main_v157 (broadcastInDim S1000 ![] bcast_S_S1000),
    binary main_v156 main_v157 main_v158 maximumf,
    unary main_v158 main_v159 (broadcastInDim S1000x1 ![0] bcast_S1000_S1000x1_0),
    unary main_v159 main_v160 (broadcastInDim S1000x64 ![0, 1] bcast_S1000x1_S1000x64_0_1),
    binary main_v152 main_v160 main_v161 Host.divf,
    binary main_v161 main_arg4 main_v162 (fun a b => concatenate S1000x264 1 [⟨S1000x64, a⟩, ⟨S1000x200, b⟩] concatenates_S1000x64_S1000x200_S1000x264_d1),
    binary main_v162 main_arg17 main_v163 (fun l r => Host.dotGeneral dot_S1000x264_S264x128_S1000x128_1_0_0_1_n_n none l r),
    unary main_arg18 main_v164 (broadcastInDim S1x128 ![1] bcast_S128_S1x128_1),
    unary main_v164 main_v165 (broadcastInDim S1000x128 ![0, 1] bcast_S1x128_S1000x128_0_1),
    binary main_v163 main_v165 main_v166 addf,
    TRef.nullary (TRef.of (T := ⟨S_, .f32⟩) main_call6_cst) (constant S_ .f32 0x00000000#32),
    TRef.unary (TRef.of (T := ⟨S_, .f32⟩) main_call6_cst) (TRef.of (T := ⟨S1000x128, .f32⟩) main_call6_v0) (broadcastInDim S1000x128 ![] bcast_S_S1000x128),
    TRef.binary (TRef.of (T := ⟨S1000x128, .f32⟩) main_v166) (TRef.of (T := ⟨S1000x128, .f32⟩) main_call6_v0) (TRef.of (T := ⟨S1000x128, .f32⟩) main_v167) maximumf,
    binary main_v167 main_arg19 main_v168 (fun l r => Host.dotGeneral dot_S1000x128_S128x1_S1000x1_1_0_0_1_n_n none l r),
    unary main_arg20 main_v169 (broadcastInDim S1x1 ![1] bcast_S1_S1x1_1),
    unary main_v169 main_v170 (broadcastInDim S1000x1 ![0, 1] bcast_S1x1_S1000x1_0_1),
    binary main_v168 main_v170 main_v171 addf,
    unary main_v171 main_v172 Host.negf,
    unary main_v172 main_v173 Host.exp,
    nullary main_cst_11 (constant S_ .f32 0x3F800000#32),
    unary main_cst_11 main_v174 (broadcastInDim S1000x1 ![] bcast_S_S1000x1),
    binary main_v174 main_v173 main_v175 addf,
    nullary main_cst_12 (constant S_ .f32 0x3F800000#32),
    unary main_cst_12 main_v176 (broadcastInDim S1000x1 ![] bcast_S_S1000x1),
    binary main_v176 main_v175 main_v177 Host.divf,
    reshape main_v177 main_v178 rfl shapeCasts_S1000x1_S1000 ]

abbrev allOps : List (HloOp τ sig (Elt F)) := opsProj ++ opsLayer0 ++ opsLayer1 ++ opsLayer2 ++ opsTail

variable (m : (ℓ : Loc nD τ sig) → Buf (Elt F) ℓ)

abbrev B0 (c : Dev nD) : Valuation τ sig (Elt F) := launchContents m c
abbrev B1 (c : Dev nD) : Valuation τ sig (Elt F) := after opsProj (B0 m c)
abbrev B2 (c : Dev nD) : Valuation τ sig (Elt F) := after opsLayer0 (B1 m c)
abbrev B3 (c : Dev nD) : Valuation τ sig (Elt F) := after opsLayer1 (B2 m c)
abbrev B4 (c : Dev nD) : Valuation τ sig (Elt F) := after opsLayer2 (B3 m c)

abbrev finalContents (c : Dev nD) : Valuation τ sig (Elt F) := after opsTail (B4 m c)

end Cert.ReferenceIdeal.Hand

end
-- ==== Proof.RefRun.lean ====
import proofs.«408410_j14482629722785_2_alg».proof.Proof.RefOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem allOps_sub : (allOps : List (HloOp τ sig (Elt F))).Forall fun op => op.bufs ⊆ tcRefs τ sig := by
  simp only [List.forall_append, List.Forall, nullary_bufs_sub, unary_bufs_sub, binary_bufs_sub, ternary_bufs_sub,
    reshape_bufs_sub, and_self]

theorem allOps_fresh : ∀ op ∈ (allOps : List (HloOp τ sig (Elt F))), op.fresh = ∅ := by
  rw [← List.forall_iff_forall_mem]
  simp only [List.forall_append, List.Forall]
  repeat' apply And.intro
  all_goals rfl

theorem after_allOps (V : Valuation τ sig (Elt F)) :
    after (allOps (F := F)) V = after opsTail (after opsLayer2 (after opsLayer1 (after opsLayer0 (after opsProj V)))) := by
  show after (opsProj ++ opsLayer0 ++ opsLayer1 ++ opsLayer2 ++ opsTail) V = _
  rw [StableHlo.after_append, StableHlo.after_append, StableHlo.after_append, StableHlo.after_append]

theorem scopedRefs_eq : (Finset.univ.filter fun b : Ref sig .tc => b.isScoped) = ∅ := by decide
theorem scopedSems_eq : (Finset.univ.filter fun sm : SemLoc sig => sm.isScoped .tc) = ∅ := by decide

theorem main_eq (c : Dev nD) : main (F := F) c = seq (allOps (F := F)) := rfl

theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = finalContents m c (Proc.devRef .tc b) :=
  (θ_run defs _ _).mono (fun _ h c b => (h c b).trans (congrFun (after_allOps (launchContents m c)) _))
    (run_seq scopedRefs_eq scopedSems_eq defs main (fun _ => allOps) main_eq (fun _ => allOps_sub) m ρ (fun _ => allOps_fresh))

end Cert.ReferenceIdeal.Hand

end
-- ==== Proof.RNet.lean ====
import proofs.«408410_j14482629722785_2_alg».proof.Proof.Gen.ReferenceIdeal
import proofs.«408410_j14482629722785_2_alg».proof.Proof.DenseSpec

noncomputable section

namespace Cert.ReferenceIdeal.Glue

open Cert.ReferenceIdeal Cert.ReferenceIdeal.Gen Idealize.ShloMosaic Cert.Dense

def srcOf (ei : IVec S2x1600000 32) : IVec S1600000 32 :=
  shapeCast S1600000 (extractStridedSlice S1x1600000 ![0, 0] ei slices_S2x1600000_S1x1600000_0_0) shapeCasts_S1x1600000_S1600000

def dstOf (ei : IVec S2x1600000 32) : IVec S1600000 32 :=
  shapeCast S1600000 (extractStridedSlice S1x1600000 ![1, 0] ei slices_S2x1600000_S1x1600000_1_0) shapeCasts_S1x1600000_S1600000

def wrapIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def gatherRows (h : FVec Ideal S100000x64 .f32) (s : IVec S1600000 32) : FVec Ideal S1600000x64 .f32 :=
  Host.gather gather_S100000x64_S1600000x1_S1600000x64_1_0_n_n_0_1_164 h (wrapIdx s)

def mat128 (W : FVec Ideal S3x128x64 .f32) (off : Fin 3 → ℕ) (h : S3x128x64.Slices off S1x128x64) : FVec Ideal S128x64 .f32 :=
  shapeCast S128x64 (extractStridedSlice S1x128x64 off W h) shapeCasts_S1x128x64_S128x64

def mat64 (W : FVec Ideal S3x64x64 .f32) (off : Fin 3 → ℕ) (h : S3x64x64.Slices off S1x64x64) : FVec Ideal S64x64 .f32 :=
  shapeCast S64x64 (extractStridedSlice S1x64x64 off W h) shapeCasts_S1x64x64_S64x64

def vec64 (b : FVec Ideal S3x64 .f32) (off : Fin 2 → ℕ) (h : S3x64.Slices off S1x64) : FVec Ideal S64 .f32 :=
  shapeCast S64 (extractStridedSlice S1x64 off b h) shapeCasts_S1x64_S64

def row64 (v : FVec Ideal S64 .f32) : FVec Ideal S1x64 .f32 := broadcastInDim S1x64 ![1] bcast_S64_S1x64_1 v
def row128 (v : FVec Ideal S128 .f32) : FVec Ideal S1x128 .f32 := broadcastInDim S1x128 ![1] bcast_S128_S1x128_1 v
def row1 (v : FVec Ideal S1 .f32) : FVec Ideal S1x1 .f32 := broadcastInDim S1x1 ![1] bcast_S1_S1x1_1 v

def aggRows (d : IVec S1600000 32) (msg : FVec Ideal S1600000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d) msg

def poolRows (bt : IVec S100000 32) (h : FVec Ideal S100000x64 .f32) : FVec Ideal S1000x64 .f32 :=
  Host.divf
    (Host.scatterAdd scatter_S1000x64_S100000x1_S100000x64_1_0_0_1
      (broadcastInDim S1000x64 ![] bcast_S_S1000x64 (constant S_ .f32 0x00000000#32))
      (broadcastInDim S100000x1 ![0] bcast_S100000_S100000x1_0 bt) h)
    (broadcastInDim S1000x64 ![0, 1] bcast_S1000x1_S1000x64_0_1
      (broadcastInDim S1000x1 ![0] bcast_S1000_S1000x1_0
        (maximumf
          (Host.scatterAdd scatter_S1000_S100000x1_S100000_n_0_0_1
            (broadcastInDim S1000 ![] bcast_S_S1000 (constant S_ .f32 0x00000000#32))
            (broadcastInDim S100000x1 ![0] bcast_S100000_S100000x1_0 bt)
            (broadcastInDim S100000 ![] bcast_S_S100000 (constant S_ .f32 0x3F800000#32)))
          (broadcastInDim S1000 ![] bcast_S_S1000 (constant S_ .f32 0x3F800000#32)))))

def squash (o : FVec Ideal S1000x1 .f32) : FVec Ideal S1000 .f32 :=
  shapeCast S1000
    (Host.divf (broadcastInDim S1000x1 ![] bcast_S_S1000x1 (constant S_ .f32 0x3F800000#32))
      (addf (broadcastInDim S1000x1 ![] bcast_S_S1000x1 (constant S_ .f32 0x3F800000#32)) (Host.exp (Host.negf o))))
    shapeCasts_S1000x1_S1000

def layer (s d : IVec S1600000 32) (ea : FVec Ideal S1600000x64 .f32)
    (Wm1 : FVec Ideal S128x64 .f32) (bm1 : FVec Ideal S1x64 .f32) (Wm2 : FVec Ideal S64x64 .f32) (bm2 : FVec Ideal S1x64 .f32)
    (Wu1 : FVec Ideal S128x64 .f32) (bu1 : FVec Ideal S1x64 .f32) (Wu2 : FVec Ideal S64x64 .f32) (bu2 : FVec Ideal S1x64 .f32)
    (h : FVec Ideal S100000x64 .f32) : FVec Ideal S100000x64 .f32 :=
  mlpArr (Hc := 128) rfl h (aggRows d (mlpArr (Hc := 128) rfl (gatherRows h s) ea Wm1 bm1 Wm2 bm2)) Wu1 bu1 Wu2 bu2

def net
    (x : FVec Ideal S100000x32 .f32) (ei : IVec S2x1600000 32) (eattr : FVec Ideal S1600000x16 .f32) (bt : IVec S100000 32)
    (desc : FVec Ideal S1000x200 .f32) (nW : FVec Ideal S32x64 .f32) (nb : FVec Ideal S64 .f32) (eW : FVec Ideal S16x64 .f32)
    (eb : FVec Ideal S64 .f32) (emW1 : FVec Ideal S3x128x64 .f32) (emb1 : FVec Ideal S3x64 .f32) (emW2 : FVec Ideal S3x64x64 .f32)
    (emb2 : FVec Ideal S3x64 .f32) (umW1 : FVec Ideal S3x128x64 .f32) (umb1 : FVec Ideal S3x64 .f32)
    (umW2 : FVec Ideal S3x64x64 .f32) (umb2 : FVec Ideal S3x64 .f32) (roW1 : FVec Ideal S264x128 .f32)
    (rob1 : FVec Ideal S128 .f32) (roW2 : FVec Ideal S128x1 .f32) (rob2 : FVec Ideal S1 .f32) : FVec Ideal S1000 .f32 :=
  let s := srcOf ei
  let d := dstOf ei
  let ea : FVec Ideal S1600000x64 .f32 := linArr eattr eW (row64 eb)
  let h0 : FVec Ideal S100000x64 .f32 := linArr x nW (row64 nb)
  let h1 := layer s d ea
    (mat128 emW1 ![0, 0, 0] slices_S3x128x64_S1x128x64_0_0_0) (row64 (vec64 emb1 ![0, 0] slices_S3x64_S1x64_0_0))
    (mat64 emW2 ![0, 0, 0] slices_S3x64x64_S1x64x64_0_0_0) (row64 (vec64 emb2 ![0, 0] slices_S3x64_S1x64_0_0))
    (mat128 umW1 ![0, 0, 0] slices_S3x128x64_S1x128x64_0_0_0) (row64 (vec64 umb1 ![0, 0] slices_S3x64_S1x64_0_0))
    (mat64 umW2 ![0, 0, 0] slices_S3x64x64_S1x64x64_0_0_0) (row64 (vec64 umb2 ![0, 0] slices_S3x64_S1x64_0_0)) h0
  let h2 := layer s d ea
    (mat128 emW1 ![1, 0, 0] slices_S3x128x64_S1x128x64_1_0_0) (row64 (vec64 emb1 ![1, 0] slices_S3x64_S1x64_1_0))
    (mat64 emW2 ![1, 0, 0] slices_S3x64x64_S1x64x64_1_0_0) (row64 (vec64 emb2 ![1, 0] slices_S3x64_S1x64_1_0))
    (mat128 umW1 ![1, 0, 0] slices_S3x128x64_S1x128x64_1_0_0) (row64 (vec64 umb1 ![1, 0] slices_S3x64_S1x64_1_0))
    (mat64 umW2 ![1, 0, 0] slices_S3x64x64_S1x64x64_1_0_0) (row64 (vec64 umb2 ![1, 0] slices_S3x64_S1x64_1_0)) h1
  let h3 := layer s d ea
    (mat128 emW1 ![2, 0, 0] slices_S3x128x64_S1x128x64_2_0_0) (row64 (vec64 emb1 ![2, 0] slices_S3x64_S1x64_2_0))
    (mat64 emW2 ![2, 0, 0] slices_S3x64x64_S1x64x64_2_0_0) (row64 (vec64 emb2 ![2, 0] slices_S3x64_S1x64_2_0))
    (mat128 umW1 ![2, 0, 0] slices_S3x128x64_S1x128x64_2_0_0) (row64 (vec64 umb1 ![2, 0] slices_S3x64_S1x64_2_0))
    (mat64 umW2 ![2, 0, 0] slices_S3x64x64_S1x64x64_2_0_0) (row64 (vec64 umb2 ![2, 0] slices_S3x64_S1x64_2_0)) h2
  squash (mlpArr (Hc := 264) rfl (poolRows bt h3) desc roW1 (row128 rob1) roW2 (row1 rob2))

end Cert.ReferenceIdeal.Glue

end
-- ==== Proof.RefDenseLin.lean ====
import proofs.«408410_j14482629722785_2_alg».proof.Proof.Gen.ReferenceIdeal
import proofs.«408410_j14482629722785_2_alg».proof.Proof.LibDense

noncomputable section

namespace Cert.ReferenceIdeal.DenseStage

open Cert.ReferenceIdeal Cert.ReferenceIdeal.Gen Idealize.ShloMosaic Idealize.ShloMosaic.ValueIdx Cert.Dense

theorem lin_nodes (x : FVec Ideal S100000x32 .f32) (W : FVec Ideal S32x64 .f32) (b : FVec Ideal S1x64 .f32) :
    addf (F := Ideal) (Host.dotGeneral dot_S100000x32_S32x64_S100000x64_1_0_0_1_n_n none x W) (broadcastInDim S100000x64 ![0, 1] bcast_S1x64_S100000x64_0_1 b)
      = linArr x W b :=
  lin_host _ x W b

theorem lin_edges (x : FVec Ideal S1600000x16 .f32) (W : FVec Ideal S16x64 .f32) (b : FVec Ideal S1x64 .f32) :
    addf (F := Ideal) (Host.dotGeneral dot_S1600000x16_S16x64_S1600000x64_1_0_0_1_n_n none x W) (broadcastInDim S1600000x64 ![0, 1] bcast_S1x64_S1600000x64_0_1 b)
      = linArr x W b :=
  lin_host _ x W b

end Cert.ReferenceIdeal.DenseStage

end
-- ==== Proof.RefDenseMlp.lean ====
import proofs.«408410_j14482629722785_2_alg».proof.Proof.Gen.ReferenceIdeal
import proofs.«408410_j14482629722785_2_alg».proof.Proof.LibDense

noncomputable section

namespace Cert.ReferenceIdeal.DenseStage

open Cert.ReferenceIdeal Cert.ReferenceIdeal.Gen Idealize.ShloMosaic Idealize.ShloMosaic.ValueIdx Cert.Dense

theorem mlp_edges (a : FVec Ideal S1600000x64 .f32) (b : FVec Ideal S1600000x64 .f32) (W1 : FVec Ideal S128x64 .f32) (b1 : FVec Ideal S1x64 .f32)
    (W2 : FVec Ideal S64x64 .f32) (b2 : FVec Ideal S1x64 .f32) :
    addf (F := Ideal) (Host.dotGeneral dot_S1600000x64_S64x64_S1600000x64_1_0_0_1_n_n none
        (maximumf (addf (Host.dotGeneral dot_S1600000x128_S128x64_S1600000x64_1_0_0_1_n_n none
            (concatenate S1600000x128 1 [⟨S1600000x64, a⟩, ⟨S1600000x64, b⟩] concatenates_S1600000x64_S1600000x64_S1600000x128_d1) W1)
          (broadcastInDim S1600000x64 ![0, 1] bcast_S1x64_S1600000x64_0_1 b1)) (broadcastInDim S1600000x64 ![] bcast_S_S1600000x64 (constant S_ .f32 0x00000000#32))) W2)
      (broadcastInDim S1600000x64 ![0, 1] bcast_S1x64_S1600000x64_0_1 b2)
      = mlpArr (Hc := 128) rfl a b W1 b1 W2 b2 :=
  mlp_host rfl _ _ _ _ a b W1 b1 W2 b2

theorem mlp_nodes (a : FVec Ideal S100000x64 .f32) (b : FVec Ideal S100000x64 .f32) (W1 : FVec Ideal S128x64 .f32) (b1 : FVec Ideal S1x64 .f32)
    (W2 : FVec Ideal S64x64 .f32) (b2 : FVec Ideal S1x64 .f32) :
    addf (F := Ideal) (Host.dotGeneral dot_S100000x64_S64x64_S100000x64_1_0_0_1_n_n none
        (maximumf (addf (Host.dotGeneral dot_S100000x128_S128x64_S100000x64_1_0_0_1_n_n none
            (concatenate S100000x128 1 [⟨S100000x64, a⟩, ⟨S100000x64, b⟩] concatenates_S100000x64_S100000x64_S100000x128_d1) W1)
          (broadcastInDim S100000x64 ![0, 1] bcast_S1x64_S100000x64_0_1 b1)) (broadcastInDim S100000x64 ![] bcast_S_S100000x64 (constant S_ .f32 0x00000000#32))) W2)
      (broadcastInDim S100000x64 ![0, 1] bcast_S1x64_S100000x64_0_1 b2)
      = mlpArr (Hc := 128) rfl a b W1 b1 W2 b2 :=
  mlp_host rfl _ _ _ _ a b W1 b1 W2 b2

theorem mlp_graphs (a : FVec Ideal S1000x64 .f32) (b : FVec Ideal S1000x200 .f32) (W1 : FVec Ideal S264x128 .f32) (b1 : FVec Ideal S1x128 .f32)
    (W2 : FVec Ideal S128x1 .f32) (b2 : FVec Ideal S1x1 .f32) :
    addf (F := Ideal) (Host.dotGeneral dot_S1000x128_S128x1_S1000x1_1_0_0_1_n_n none
        (maximumf (addf (Host.dotGeneral dot_S1000x264_S264x128_S1000x128_1_0_0_1_n_n none
            (concatenate S1000x264 1 [⟨S1000x64, a⟩, ⟨S1000x200, b⟩] concatenates_S1000x64_S1000x200_S1000x264_d1) W1)
          (broadcastInDim S1000x128 ![0, 1] bcast_S1x128_S1000x128_0_1 b1)) (broadcastInDim S1000x128 ![] bcast_S_S1000x128 (constant S_ .f32 0x00000000#32))) W2)
      (broadcastInDim S1000x1 ![0, 1] bcast_S1x1_S1000x1_0_1 b2)
      = mlpArr (Hc := 264) rfl a b W1 b1 W2 b2 :=
  mlp_host rfl _ _ _ _ a b W1 b1 W2 b2

end Cert.ReferenceIdeal.DenseStage

end
-- ==== Proof.RefChain.lean ====
import proofs.«408410_j14482629722785_2_alg».proof.Proof.RefOps
import proofs.«408410_j14482629722785_2_alg».proof.Proof.RNet
import proofs.«408410_j14482629722785_2_alg».proof.Proof.RefDenseLin
import proofs.«408410_j14482629722785_2_alg».proof.Proof.RefDenseMlp

noncomputable section

namespace Cert.ReferenceIdeal.Hand

open Cert.ReferenceIdeal Cert.ReferenceIdeal.Gen Idealize.ShloMosaic Idealize.ShloMosaic.TcCoe Idealize.SL.Sem Idealize.ShloMosaic.StableHlo Cert.Dense

variable (m : (ℓ : Loc nD τ sig) → Buf (Elt Ideal) ℓ)

abbrev wProj : List (Ref sig .tc) :=
  [main_v0, main_v1, main_v2, main_v3, main_v4, main_v5, main_v6, main_v7, main_v8, main_v9, main_v10, main_v11]

abbrev wL0 : List (Ref sig .tc) :=
  [main_c, main_v12, main_v13, main_c_0, main_v14, main_v15, main_v16, main_v17, main_v18, main_v19, main_v20,
   main_v21, main_v22, main_v23, main_v24, main_v25, main_v26, main_v27, main_call0_cst, main_call0_v0, main_v28,
   main_v29, main_v30, main_v31, main_v32, main_v33, main_v34, main_v35, main_v36, main_cst, main_v37, main_v38,
   main_v39, main_v40, main_v41, main_v42, main_v43, main_v44, main_v45, main_v46, main_v47, main_v48,
   main_call1_cst, main_call1_v0, main_v49, main_v50, main_v51, main_v52, main_v53, main_v54, main_v55, main_v56,
   main_v57]

abbrev wL1 : List (Ref sig .tc) :=
  [main_c_1, main_v58, main_v59, main_c_2, main_v60, main_v61, main_v62, main_v63, main_v64, main_v65, main_v66,
   main_v67, main_v68, main_v69, main_v70, main_v71, main_v72, main_v73, main_call2_cst, main_call2_v0, main_v74,
   main_v75, main_v76, main_v77, main_v78, main_v79, main_v80, main_v81, main_v82, main_cst_3, main_v83, main_v84,
   main_v85, main_v86, main_v87, main_v88, main_v89, main_v90, main_v91, main_v92, main_v93, main_v94,
   main_call3_cst, main_call3_v0, main_v95, main_v96, main_v97, main_v98, main_v99, main_v100, main_v101, main_v102,
   main_v103]

abbrev wL2 : List (Ref sig .tc) :=
  [main_c_4, main_v104, main_v105, main_c_5, main_v106, main_v107, main_v108, main_v109, main_v110, main_v111,
   main_v112, main_v113, main_v114, main_v115, main_v116, main_v117, main_v118, main_v119, main_call4_cst,
   main_call4_v0, main_v120, main_v121, main_v122, main_v123, main_v124, main_v125, main_v126, main_v127, main_v128,
   main_cst_6, main_v129, main_v130, main_v131, main_v132, main_v133, main_v134, main_v135, main_v136, main_v137,
   main_v138, main_v139, main_v140, main_call5_cst, main_call5_v0, main_v141, main_v142, main_v143, main_v144,
   main_v145, main_v146, main_v147, main_v148, main_v149]

abbrev wTail : List (Ref sig .tc) :=
  [main_cst_7, main_v150, main_v151, main_v152, main_cst_8, main_v153, main_cst_9, main_v154, main_v155, main_v156,
   main_cst_10, main_v157, main_v158, main_v159, main_v160, main_v161, main_v162, main_v163, main_v164, main_v165,
   main_v166, main_call6_cst, main_call6_v0, main_v167, main_v168, main_v169, main_v170, main_v171, main_v172,
   main_v173, main_cst_11, main_v174, main_v175, main_cst_12, main_v176, main_v177, main_v178]
abbrev wAll : List (Ref sig .tc) := wProj ++ wL0 ++ wL1 ++ wL2 ++ wTail

theorem keepProj (V : Valuation τ sig (Elt Ideal)) {r : Ref sig .tc} (hr : r ∉ wProj) :
    after (opsProj (F := Ideal)) V (Proc.devRef .tc r) = V (Proc.devRef .tc r) :=
  after_of_writes_sub (opsProj (F := Ideal)) V (by
    simp only [opsProj, List.Forall, nullary_writes, unary_writes, binary_writes, ternary_writes, reshape_writes, Finset.singleton_subset_iff]
    repeat' apply And.intro
    all_goals exact List.mem_toFinset.mpr (List.mem_map_of_mem (by decide))) hr

theorem keepL0 (V : Valuation τ sig (Elt Ideal)) {r : Ref sig .tc} (hr : r ∉ wL0) :
    after (opsLayer0 (F := Ideal)) V (Proc.devRef .tc r) = V (Proc.devRef .tc r) :=
  after_of_writes_sub (opsLayer0 (F := Ideal)) V (by
    simp only [opsLayer0, List.Forall, nullary_writes, unary_writes, binary_writes, ternary_writes, reshape_writes, Finset.singleton_subset_iff]
    repeat' apply And.intro
    all_goals exact List.mem_toFinset.mpr (List.mem_map_of_mem (by decide))) hr

theorem keepL1 (V : Valuation τ sig (Elt Ideal)) {r : Ref sig .tc} (hr : r ∉ wL1) :
    after (opsLayer1 (F := Ideal)) V (Proc.devRef .tc r) = V (Proc.devRef .tc r) :=
  after_of_writes_sub (opsLayer1 (F := Ideal)) V (by
    simp only [opsLayer1, List.Forall, nullary_writes, unary_writes, binary_writes, ternary_writes, reshape_writes, Finset.singleton_subset_iff]
    repeat' apply And.intro
    all_goals exact List.mem_toFinset.mpr (List.mem_map_of_mem (by decide))) hr

theorem keepL2 (V : Valuation τ sig (Elt Ideal)) {r : Ref sig .tc} (hr : r ∉ wL2) :
    after (opsLayer2 (F := Ideal)) V (Proc.devRef .tc r) = V (Proc.devRef .tc r) :=
  after_of_writes_sub (opsLayer2 (F := Ideal)) V (by
    simp only [opsLayer2, List.Forall, nullary_writes, unary_writes, binary_writes, ternary_writes, reshape_writes, Finset.singleton_subset_iff]
    repeat' apply And.intro
    all_goals exact List.mem_toFinset.mpr (List.mem_map_of_mem (by decide))) hr

theorem keepTail (V : Valuation τ sig (Elt Ideal)) {r : Ref sig .tc} (hr : r ∉ wTail) :
    after (opsTail (F := Ideal)) V (Proc.devRef .tc r) = V (Proc.devRef .tc r) :=
  after_of_writes_sub (opsTail (F := Ideal)) V (by
    simp only [opsTail, List.Forall, nullary_writes, unary_writes, binary_writes, ternary_writes, reshape_writes, Finset.singleton_subset_iff]
    repeat' apply And.intro
    all_goals exact List.mem_toFinset.mpr (List.mem_map_of_mem (by decide))) hr
/-- One message-passing layer of the network, its operands read from the buffers of `V`. -/
def layerOf (V : Valuation τ sig (Elt Ideal)) (o3 : Fin 3 → ℕ) (o2 : Fin 2 → ℕ) (s128 : S3x128x64.Slices o3 S1x128x64)
    (s64 : S3x64x64.Slices o3 S1x64x64) (sv : S3x64.Slices o2 S1x64) (h : FVec Ideal S100000x64 .f32) : FVec Ideal S100000x64 .f32 :=
  Glue.layer (V (Proc.devRef .tc main_v1)) (V (Proc.devRef .tc main_v3)) (V (Proc.devRef .tc main_v11))
    (Glue.mat128 (V (Proc.devRef .tc main_arg9)) o3 s128) (Glue.row64 (Glue.vec64 (V (Proc.devRef .tc main_arg10)) o2 sv))
    (Glue.mat64 (V (Proc.devRef .tc main_arg11)) o3 s64) (Glue.row64 (Glue.vec64 (V (Proc.devRef .tc main_arg12)) o2 sv))
    (Glue.mat128 (V (Proc.devRef .tc main_arg13)) o3 s128) (Glue.row64 (Glue.vec64 (V (Proc.devRef .tc main_arg14)) o2 sv))
    (Glue.mat64 (V (Proc.devRef .tc main_arg15)) o3 s64) (Glue.row64 (Glue.vec64 (V (Proc.devRef .tc main_arg16)) o2 sv)) h

theorem layer0_read (V : Valuation τ sig (Elt Ideal)) :
    after (opsLayer0 (F := Ideal)) V (Proc.devRef .tc main_v57) = layerOf V ![0, 0, 0] ![0, 0] slices_S3x128x64_S1x128x64_0_0_0 slices_S3x64x64_S1x64x64_0_0_0 slices_S3x64_S1x64_0_0 (V (Proc.devRef .tc main_v7)) := by
  after_results_simp
  unfold layerOf Glue.layer
  rw [← DenseStage.mlp_nodes, ← DenseStage.mlp_edges]
  rfl

theorem layer1_read (V : Valuation τ sig (Elt Ideal)) :
    after (opsLayer1 (F := Ideal)) V (Proc.devRef .tc main_v103) = layerOf V ![1, 0, 0] ![1, 0] slices_S3x128x64_S1x128x64_1_0_0 slices_S3x64x64_S1x64x64_1_0_0 slices_S3x64_S1x64_1_0 (V (Proc.devRef .tc main_v57)) := by
  after_results_simp
  unfold layerOf Glue.layer
  rw [← DenseStage.mlp_nodes, ← DenseStage.mlp_edges]
  rfl

theorem layer2_read (V : Valuation τ sig (Elt Ideal)) :
    after (opsLayer2 (F := Ideal)) V (Proc.devRef .tc main_v149) = layerOf V ![2, 0, 0] ![2, 0] slices_S3x128x64_S1x128x64_2_0_0 slices_S3x64x64_S1x64x64_2_0_0 slices_S3x64_S1x64_2_0 (V (Proc.devRef .tc main_v103)) := by
  after_results_simp
  unfold layerOf Glue.layer
  rw [← DenseStage.mlp_nodes, ← DenseStage.mlp_edges]
  rfl

theorem tail_read (V : Valuation τ sig (Elt Ideal)) :
    after (opsTail (F := Ideal)) V (Proc.devRef .tc main_v178)
      = Glue.squash (mlpArr (Hc := 264) rfl (Glue.poolRows (V (Proc.devRef .tc main_arg3)) (V (Proc.devRef .tc main_v149))) (V (Proc.devRef .tc main_arg4)) (V (Proc.devRef .tc main_arg17))
          (Glue.row128 (V (Proc.devRef .tc main_arg18))) (V (Proc.devRef .tc main_arg19)) (Glue.row1 (V (Proc.devRef .tc main_arg20)))) := by
  after_results_simp
  rw [← DenseStage.mlp_graphs]
  rfl

def SRC (c : Dev nD) : IVec S1600000 32 := Glue.srcOf (m ((c.tc : Thread nD τ).loc main_arg1))
def DST (c : Dev nD) : IVec S1600000 32 := Glue.dstOf (m ((c.tc : Thread nD τ).loc main_arg1))
def EA (c : Dev nD) : FVec Ideal S1600000x64 .f32 := linArr (m ((c.tc : Thread nD τ).loc main_arg2)) (m ((c.tc : Thread nD τ).loc main_arg7)) (Glue.row64 (m ((c.tc : Thread nD τ).loc main_arg8)))
def H0 (c : Dev nD) : FVec Ideal S100000x64 .f32 := linArr (m ((c.tc : Thread nD τ).loc main_arg0)) (m ((c.tc : Thread nD τ).loc main_arg5)) (Glue.row64 (m ((c.tc : Thread nD τ).loc main_arg6)))

/-- One layer of the network on the launch contents' weights, from node features `h`. -/
def step (c : Dev nD) (o3 : Fin 3 → ℕ) (o2 : Fin 2 → ℕ) (s128 : S3x128x64.Slices o3 S1x128x64)
    (s64 : S3x64x64.Slices o3 S1x64x64) (sv : S3x64.Slices o2 S1x64) (h : FVec Ideal S100000x64 .f32) : FVec Ideal S100000x64 .f32 :=
  Glue.layer (SRC m c) (DST m c) (EA m c)
    (Glue.mat128 (m ((c.tc : Thread nD τ).loc main_arg9)) o3 s128) (Glue.row64 (Glue.vec64 (m ((c.tc : Thread nD τ).loc main_arg10)) o2 sv))
    (Glue.mat64 (m ((c.tc : Thread nD τ).loc main_arg11)) o3 s64) (Glue.row64 (Glue.vec64 (m ((c.tc : Thread nD τ).loc main_arg12)) o2 sv))
    (Glue.mat128 (m ((c.tc : Thread nD τ).loc main_arg13)) o3 s128) (Glue.row64 (Glue.vec64 (m ((c.tc : Thread nD τ).loc main_arg14)) o2 sv))
    (Glue.mat64 (m ((c.tc : Thread nD τ).loc main_arg15)) o3 s64) (Glue.row64 (Glue.vec64 (m ((c.tc : Thread nD τ).loc main_arg16)) o2 sv)) h

def H1 (c : Dev nD) : FVec Ideal S100000x64 .f32 := step m c ![0, 0, 0] ![0, 0] slices_S3x128x64_S1x128x64_0_0_0 slices_S3x64x64_S1x64x64_0_0_0 slices_S3x64_S1x64_0_0 (H0 m c)
def H2 (c : Dev nD) : FVec Ideal S100000x64 .f32 := step m c ![1, 0, 0] ![1, 0] slices_S3x128x64_S1x128x64_1_0_0 slices_S3x64x64_S1x64x64_1_0_0 slices_S3x64_S1x64_1_0 (H1 m c)
def H3 (c : Dev nD) : FVec Ideal S100000x64 .f32 := step m c ![2, 0, 0] ![2, 0] slices_S3x128x64_S1x128x64_2_0_0 slices_S3x64x64_S1x64x64_2_0_0 slices_S3x64_S1x64_2_0 (H2 m c)

/-- A buffer no operation writes holds its launch contents at every boundary of the run. -/
theorem kept (c : Dev nD) {r : Ref sig .tc} (h : r ∉ wAll) :
    B1 (F := Ideal) m c (Proc.devRef .tc r) = m ((c.tc : Thread nD τ).loc r)
    ∧ B2 (F := Ideal) m c (Proc.devRef .tc r) = m ((c.tc : Thread nD τ).loc r)
    ∧ B3 (F := Ideal) m c (Proc.devRef .tc r) = m ((c.tc : Thread nD τ).loc r)
    ∧ B4 (F := Ideal) m c (Proc.devRef .tc r) = m ((c.tc : Thread nD τ).loc r)
    ∧ finalContents (F := Ideal) m c (Proc.devRef .tc r) = m ((c.tc : Thread nD τ).loc r) := by
  simp only [wAll, List.mem_append, not_or] at h
  obtain ⟨⟨⟨⟨h0, h1⟩, h2⟩, h3⟩, h4⟩ := h
  have e1 := keepProj (B0 m c) h0
  have e2 := (keepL0 (B1 m c) h1).trans e1
  have e3 := (keepL1 (B2 m c) h2).trans e2
  have e4 := (keepL2 (B3 m c) h3).trans e3
  exact ⟨e1, e2, e3, e4, (keepTail (B4 m c) h4).trans e4⟩
theorem b1_src (c : Dev nD) : B1 (F := Ideal) m c (Proc.devRef .tc main_v1) = SRC m c := by
  show after opsProj (B0 m c) _ = _
  after_results
  rfl
theorem b1_dst (c : Dev nD) : B1 (F := Ideal) m c (Proc.devRef .tc main_v3) = DST m c := by
  show after opsProj (B0 m c) _ = _
  after_results
  rfl
theorem b1_ea (c : Dev nD) : B1 (F := Ideal) m c (Proc.devRef .tc main_v11) = EA m c := by
  show after opsProj (B0 m c) _ = _
  after_results
  rw [DenseStage.lin_edges]
  rfl
theorem b1_h (c : Dev nD) : B1 (F := Ideal) m c (Proc.devRef .tc main_v7) = H0 m c := by
  show after opsProj (B0 m c) _ = _
  after_results
  rw [DenseStage.lin_nodes]
  rfl
theorem b2_src (c : Dev nD) : B2 (F := Ideal) m c (Proc.devRef .tc main_v1) = SRC m c :=
  (keepL0 (B1 m c) (by decide)).trans (b1_src m c)
theorem b2_dst (c : Dev nD) : B2 (F := Ideal) m c (Proc.devRef .tc main_v3) = DST m c :=
  (keepL0 (B1 m c) (by decide)).trans (b1_dst m c)
theorem b2_ea (c : Dev nD) : B2 (F := Ideal) m c (Proc.devRef .tc main_v11) = EA m c :=
  (keepL0 (B1 m c) (by decide)).trans (b1_ea m c)
theorem b2_h (c : Dev nD) : B2 (F := Ideal) m c (Proc.devRef .tc main_v57) = H1 m c := by
  show after opsLayer0 (B1 m c) _ = _
  rw [layer0_read]
  unfold layerOf
  rw [b1_src, b1_dst, b1_ea, b1_h,
    (kept m c (r := main_arg9) (by decide)).1, (kept m c (r := main_arg10) (by decide)).1, (kept m c (r := main_arg11) (by decide)).1, (kept m c (r := main_arg12) (by decide)).1, (kept m c (r := main_arg13) (by decide)).1, (kept m c (r := main_arg14) (by decide)).1, (kept m c (r := main_arg15) (by decide)).1, (kept m c (r := main_arg16) (by decide)).1]
  rfl

theorem b3_src (c : Dev nD) : B3 (F := Ideal) m c (Proc.devRef .tc main_v1) = SRC m c :=
  (keepL1 (B2 m c) (by decide)).trans (b2_src m c)
theorem b3_dst (c : Dev nD) : B3 (F := Ideal) m c (Proc.devRef .tc main_v3) = DST m c :=
  (keepL1 (B2 m c) (by decide)).trans (b2_dst m c)
theorem b3_ea (c : Dev nD) : B3 (F := Ideal) m c (Proc.devRef .tc main_v11) = EA m c :=
  (keepL1 (B2 m c) (by decide)).trans (b2_ea m c)
theorem b3_h (c : Dev nD) : B3 (F := Ideal) m c (Proc.devRef .tc main_v103) = H2 m c := by
  show after opsLayer1 (B2 m c) _ = _
  rw [layer1_read]
  unfold layerOf
  rw [b2_src, b2_dst, b2_ea, b2_h,
    (kept m c (r := main_arg9) (by decide)).2.1, (kept m c (r := main_arg10) (by decide)).2.1, (kept m c (r := main_arg11) (by decide)).2.1, (kept m c (r := main_arg12) (by decide)).2.1, (kept m c (r := main_arg13) (by decide)).2.1, (kept m c (r := main_arg14) (by decide)).2.1, (kept m c (r := main_arg15) (by decide)).2.1, (kept m c (r := main_arg16) (by decide)).2.1]
  rfl

theorem b4_src (c : Dev nD) : B4 (F := Ideal) m c (Proc.devRef .tc main_v1) = SRC m c :=
  (keepL2 (B3 m c) (by decide)).trans (b3_src m c)
theorem b4_dst (c : Dev nD) : B4 (F := Ideal) m c (Proc.devRef .tc main_v3) = DST m c :=
  (keepL2 (B3 m c) (by decide)).trans (b3_dst m c)
theorem b4_ea (c : Dev nD) : B4 (F := Ideal) m c (Proc.devRef .tc main_v11) = EA m c :=
  (keepL2 (B3 m c) (by decide)).trans (b3_ea m c)
theorem b4_h (c : Dev nD) : B4 (F := Ideal) m c (Proc.devRef .tc main_v149) = H3 m c := by
  show after opsLayer2 (B3 m c) _ = _
  rw [layer2_read]
  unfold layerOf
  rw [b3_src, b3_dst, b3_ea, b3_h,
    (kept m c (r := main_arg9) (by decide)).2.2.1, (kept m c (r := main_arg10) (by decide)).2.2.1, (kept m c (r := main_arg11) (by decide)).2.2.1, (kept m c (r := main_arg12) (by decide)).2.2.1, (kept m c (r := main_arg13) (by decide)).2.2.1, (kept m c (r := main_arg14) (by decide)).2.2.1, (kept m c (r := main_arg15) (by decide)).2.2.1, (kept m c (r := main_arg16) (by decide)).2.2.1]
  rfl

theorem result_eq (c : Dev nD) :
    finalContents (F := Ideal) m c (Proc.devRef .tc main_v178) = Glue.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show after opsTail (B4 m c) _ = _
  rw [tail_read, b4_h,
    (kept m c (r := main_arg3) (by decide)).2.2.2.1, (kept m c (r := main_arg4) (by decide)).2.2.2.1, (kept m c (r := main_arg17) (by decide)).2.2.2.1, (kept m c (r := main_arg18) (by decide)).2.2.2.1, (kept m c (r := main_arg19) (by decide)).2.2.2.1, (kept m c (r := main_arg20) (by decide)).2.2.2.1]
  rfl

end Cert.ReferenceIdeal.Hand

end
-- ==== Proof.NetBridge.lean ====
import proofs.«408410_j14482629722785_2_alg».proof.Proof.KNet
import proofs.«408410_j14482629722785_2_alg».proof.Proof.RNet
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx Cert.Dense

/-- A vector reshaped to one row is the vector broadcast along a leading unit axis. -/
theorem row_eq {n : ℕ} (v : (⟨1, ![n]⟩ : Shape).Idx → EReal) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ v hs = broadcastInDim ⟨2, ![1, n]⟩ ![1] hb v := by
  funext i
  refine (shapeCast_apply v _ i (ix1 (i 1)) ?_).trans (broadcastInDim_apply ![1] _ v i (ix1 (i 1)) ?_).symm
  · rewrite [Shape.rowMajor_val_one, Shape.rowMajor_val_two]
    have h0 : (i 0).val = 0 := Nat.lt_one_iff.mp (i 0).isLt
    show (i 1).val = (i 0).val * n + (i 1).val
    rw [h0, Nat.zero_mul, Nat.zero_add]
  · exact fun a => match a with
      | ⟨0, _⟩ => by
        show (i 1).val = if n = 1 then 0 else (i 1).val
        split
        · have := idx2_lt1 i; omega
        · rfl

theorem row64_eq (v : FVec Ideal Cert.KernelIdeal.S64 .f32) :
    Cert.KernelIdeal.Glue.row64 v = Cert.ReferenceIdeal.Glue.row64 v := row_eq v _ _

theorem row128_eq (v : FVec Ideal Cert.KernelIdeal.S128 .f32) :
    Cert.KernelIdeal.Glue.row128 v = Cert.ReferenceIdeal.Glue.row128 v := row_eq v _ _

theorem row1_eq (v : FVec Ideal Cert.KernelIdeal.S1 .f32) :
    Cert.KernelIdeal.Glue.row1 v = Cert.ReferenceIdeal.Glue.row1 v := row_eq v _ _

theorem layer_eq (s d : IVec Cert.KernelIdeal.S1600000 32) (ea : FVec Ideal Cert.KernelIdeal.S1600000x64 .f32)
    (Wm1 : FVec Ideal Cert.KernelIdeal.S128x64 .f32) (bm1 : FVec Ideal Cert.KernelIdeal.S1x64 .f32)
    (Wm2 : FVec Ideal Cert.KernelIdeal.S64x64 .f32) (bm2 : FVec Ideal Cert.KernelIdeal.S1x64 .f32)
    (Wu1 : FVec Ideal Cert.KernelIdeal.S128x64 .f32) (bu1 : FVec Ideal Cert.KernelIdeal.S1x64 .f32)
    (Wu2 : FVec Ideal Cert.KernelIdeal.S64x64 .f32) (bu2 : FVec Ideal Cert.KernelIdeal.S1x64 .f32)
    (h : FVec Ideal Cert.KernelIdeal.S100000x64 .f32) :
    Cert.KernelIdeal.Glue.layerWith (fun h => Cert.KernelIdeal.Glue.gatherRows h s) d ea Wm1 bm1 Wm2 bm2 Wu1 bu1 Wu2 bu2 h
      = Cert.ReferenceIdeal.Glue.layer s d ea Wm1 bm1 Wm2 bm2 Wu1 bu1 Wu2 bu2 h := by
  rfl

theorem knet_eq_rnet (x : FVec Ideal Cert.KernelIdeal.S100000x32 .f32) (ei : IVec Cert.KernelIdeal.S2x1600000 32) (eattr : FVec Ideal Cert.KernelIdeal.S1600000x16 .f32) (bt : IVec Cert.KernelIdeal.S100000 32)
    (desc : FVec Ideal Cert.KernelIdeal.S1000x200 .f32) (nW : FVec Ideal Cert.KernelIdeal.S32x64 .f32) (nb : FVec Ideal Cert.KernelIdeal.S64 .f32) (eW : FVec Ideal Cert.KernelIdeal.S16x64 .f32)
    (eb : FVec Ideal Cert.KernelIdeal.S64 .f32) (emW1 : FVec Ideal Cert.KernelIdeal.S3x128x64 .f32) (emb1 : FVec Ideal Cert.KernelIdeal.S3x64 .f32) (emW2 : FVec Ideal Cert.KernelIdeal.S3x64x64 .f32)
    (emb2 : FVec Ideal Cert.KernelIdeal.S3x64 .f32) (umW1 : FVec Ideal Cert.KernelIdeal.S3x128x64 .f32) (umb1 : FVec Ideal Cert.KernelIdeal.S3x64 .f32)
    (umW2 : FVec Ideal Cert.KernelIdeal.S3x64x64 .f32) (umb2 : FVec Ideal Cert.KernelIdeal.S3x64 .f32) (roW1 : FVec Ideal Cert.KernelIdeal.S264x128 .f32)
    (rob1 : FVec Ideal Cert.KernelIdeal.S128 .f32) (roW2 : FVec Ideal Cert.KernelIdeal.S128x1 .f32) (rob2 : FVec Ideal Cert.KernelIdeal.S1 .f32) :
    Cert.KernelIdeal.Glue.netWith (fun h => Cert.KernelIdeal.Glue.gatherRows h (Cert.KernelIdeal.Glue.srcOf ei))
        x ei eattr bt desc nW nb eW eb emW1 emb1 emW2 emb2 umW1 umb1 umW2 umb2 roW1 rob1 roW2 rob2
      = Cert.ReferenceIdeal.Glue.net x ei eattr bt desc nW nb eW eb emW1 emb1 emW2 emb2 umW1 umb1 umW2 umb2 roW1 rob1 roW2 rob2 := by
  unfold Cert.KernelIdeal.Glue.netWith Cert.KernelIdeal.Glue.layerAt Cert.ReferenceIdeal.Glue.net
  simp only [layer_eq, row64_eq, row128_eq, row1_eq]
  rfl

end Cert.Bridge

end
-- ==== Proof.lean ====
import proofs.«408410_j14482629722785_2_alg».proof.Defs
import proofs.«408410_j14482629722785_2_alg».proof.Proof.Gen.Kernel
import proofs.«408410_j14482629722785_2_alg».proof.Proof.Gen.Kernel.Frame
import proofs.«408410_j14482629722785_2_alg».proof.Proof.Gen.KernelIdeal
import proofs.«408410_j14482629722785_2_alg».proof.Proof.Gen.KernelIdeal.Frame
import proofs.«408410_j14482629722785_2_alg».proof.Proof.Gen.ReferenceIdeal
import proofs.«408410_j14482629722785_2_alg».proof.Proof.Gen.Pre_finite_inputs
import proofs.«408410_j14482629722785_2_alg».proof.Proof.KRun
import proofs.«408410_j14482629722785_2_alg».proof.Proof.KChain
import proofs.«408410_j14482629722785_2_alg».proof.Proof.KPre
import proofs.«408410_j14482629722785_2_alg».proof.Proof.RefRun
import proofs.«408410_j14482629722785_2_alg».proof.Proof.RefChain
import proofs.«408410_j14482629722785_2_alg».proof.Proof.NetBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run leaves every buffer at the fold of its operations over the launch contents, and no operation writes an argument. -/
theorem frame_ri : Cert.frame_ReferenceIdeal := fun m ρ _ =>
  (θ_run Cert.ReferenceIdeal.defs _ _).mono (fun r h c => by
    repeat' apply And.intro
    all_goals exact (h c _).trans (Cert.ReferenceIdeal.Hand.kept m c (by decide)).2.2.2.2)
    (Cert.ReferenceIdeal.Hand.run_fold (F := Ideal) m ρ)

theorem preserves : Cert.preserves_Kernel_KernelIdeal := trivial

/-- Both programs end at one network of the arguments: under the precondition every source row number is in range, so the kernel program's gather never meets its fill. -/
theorem algebraic : Cert.algebraic_KernelIdeal_ReferenceIdeal := by
  intro m ρ m' ρ' hpre hagree
  refine ⟨_, (θ_run Cert.KernelIdeal.defs _ _).mono (fun r h c =>
      ⟨(h c).1.trans (Cert.KernelIdeal.Chain.result_plain m ρ c (Cert.KernelIdeal.Glue.srcInRange_of_pre m hpre c)), (h c).2⟩)
      (Cert.KernelIdeal.Gen.run_result (F := Ideal) m ρ),
    (θ_run Cert.ReferenceIdeal.defs _ _).mono (fun r h c => ?_) (Cert.ReferenceIdeal.Hand.run_fold (F := Ideal) m' ρ')⟩
  · obtain ⟨a0, a1, a2, a3, a4, a5, a6, a7, a8, a9, a10, a11, a12, a13, a14, a15, a16, a17, a18, a19, a20⟩ := hagree c
    refine ⟨?_, ?_⟩
    · rw [h c Cert.ReferenceIdeal.main_v178, Cert.ReferenceIdeal.Hand.result_eq m' c, a0, a1, a2, a3, a4, a5, a6, a7, a8, a9, a10, a11, a12, a13, a14, a15, a16, a17, a18, a19, a20]
      exact (Cert.Bridge.knet_eq_rnet _ _ _ _ _ _ _ _ _ _ _ _ _ _ _ _ _ _ _ _ _).symm
    · repeat' apply And.intro
      all_goals exact (h c _).trans (Cert.ReferenceIdeal.Hand.kept m' c (by decide)).2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
